-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S3200000 : Shape := ⟨1, ![3200000]⟩
abbrev S4096 : Shape := ⟨1, ![4096]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S3200000 : S_.BroadcastsInDim S3200000 (![] : Fin 0 → Fin S3200000.rank)
  reducesTo_S3200000_S_d0 : S3200000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg5 : IVec S4096 32) (main_arg6 : IVec S4096 32) (main_arg7 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg5 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 4294867296#32
  let main_v21 : IVec S4096 32 := broadcastInDim S4096 ![] bcast_S_S4096 main_c_7
  let main_v22 : IVec S4096 1 := cmpi .sge main_arg6 main_v21
  let main_c_8 : IVec S_ 32 := constantI S_ 32 100000#32
  let main_v23 : IVec S4096 32 := broadcastInDim S4096 ![] bcast_S_S4096 main_c_8
  let main_v24 : IVec S4096 1 := cmpi .slt main_arg6 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  let main_c_10 : IVec S_ 32 := constantI S_ 32 4294867296#32
  let main_v28 : IVec S4096 32 := broadcastInDim S4096 ![] bcast_S_S4096 main_c_10
  let main_v29 : IVec S4096 1 := cmpi .sge main_arg7 main_v28
  let main_c_11 : IVec S_ 32 := constantI S_ 32 100000#32
  let main_v30 : IVec S4096 32 := broadcastInDim S4096 ![] bcast_S_S4096 main_c_11
  let main_v31 : IVec S4096 1 := cmpi .slt main_arg7 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : FVec F S100000x256 .f32) (main_arg1 : FVec F S256x64 .f32) (main_arg2 : IVec S3200000 32) (main_arg3 : IVec S3200000 32) (main_arg4 : FVec F S3200000 .f32) (main_arg5 : IVec S4096 32) (main_arg6 : IVec S4096 32) (main_arg7 : IVec S4096 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_c_4 : IVec S_ 32 := constantI S_ 32 4294867296#32
  let main_v14 : IVec S4096 32 := broadcastInDim S4096 ![] bcast_S_S4096 main_c_4
  let main_v15 : IVec S4096 1 := cmpi .sge main_arg5 main_v14
  let main_c_5 : IVec S_ 32 := constantI S_ 32 100000#32
  fn_part1 (F := F) main_arg5 main_arg6 main_arg7 main_v13 main_v15 main_c_5
-- ==== Kernel.lean ====
abbrev S100000x256 : Shape := ⟨2, ![100000, 256]⟩
abbrev S256x64 : Shape := ⟨2, ![256, 64]⟩
abbrev S3200000 : Shape := ⟨1, ![3200000]⟩
abbrev S4096 : Shape := ⟨1, ![4096]⟩
abbrev S100000x64 : Shape := ⟨2, ![100000, 64]⟩
abbrev S5000x256 : Shape := ⟨2, ![5000, 256]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x1 : Shape := ⟨2, ![1, 1]⟩
abbrev S5000 : Shape := ⟨1, ![5000]⟩
abbrev S5000x1 : Shape := ⟨2, ![5000, 1]⟩
abbrev S1 : Shape := ⟨1, ![1]⟩
abbrev S4096x1 : Shape := ⟨2, ![4096, 1]⟩
abbrev S4096x64 : Shape := ⟨2, ![4096, 64]⟩
abbrev S512x64 : Shape := ⟨2, ![512, 64]⟩
abbrev S512 : Shape := ⟨1, ![512]⟩
abbrev S512x1 : Shape := ⟨2, ![512, 1]⟩

abbrev nBuf : Space → Nat
  | .hbm => 104
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S100000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S100000x64, .f32⟩
  | .hbm, ⟨26, _⟩ => ⟨S1x1, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x64, .f32⟩
  | .hbm, ⟨46, _⟩ => ⟨S4096x64, .i1⟩
  | .hbm, ⟨47, _⟩ => ⟨S_, .f32⟩
  | .hbm, ⟨48, _⟩ => ⟨S4096x64, .f32⟩
  | .hbm, ⟨49, _⟩ => ⟨S4096x64, .f32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S1, .i32⟩
  | .hbm, ⟨59, _⟩ => ⟨S_, .i32⟩
  | .hbm, ⟨60, _⟩ => ⟨S4096x1, .i32⟩
  | .hbm, ⟨61, _⟩ => ⟨S4096x1, .i1⟩
  | .hbm, ⟨62, _⟩ => ⟨S1x1, .i32⟩
  | .hbm, ⟨63, _⟩ => ⟨S4096x1, .i32⟩
  | .hbm, ⟨64, _⟩ => ⟨S4096x1, .i1⟩
  | .hbm, ⟨65, _⟩ => ⟨S4096x1, .i1⟩
  | .hbm, ⟨66, _⟩ => ⟨S_, .i1⟩
  | .hbm, ⟨67, _⟩ => ⟨S4096, .i1⟩
  | .hbm, ⟨68, _⟩ => ⟨S4096x64, .f32⟩
  | .hbm, ⟨69, _⟩ => ⟨S4096x64, .i1⟩
  | .hbm, ⟨70, _⟩ => ⟨S_, .f32⟩
  | .hbm, ⟨71, _⟩ => ⟨S4096x64, .f32⟩
  | .hbm, ⟨72, _⟩ => ⟨S4096x64, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S1, .i32⟩
  | .hbm, ⟨82, _⟩ => ⟨S_, .i32⟩
  | .hbm, ⟨83, _⟩ => ⟨S4096x1, .i32⟩
  | .hbm, ⟨84, _⟩ => ⟨S4096x1, .i1⟩
  | .hbm, ⟨85, _⟩ => ⟨S1x1, .i32⟩
  | .hbm, ⟨86, _⟩ => ⟨S4096x1, .i32⟩
  | .hbm, ⟨87, _⟩ => ⟨S4096x1, .i1⟩
  | .hbm, ⟨88, _⟩ => ⟨S4096x1, .i1⟩
  | .hbm, ⟨89, _⟩ => ⟨S_, .i1⟩
  | .hbm, ⟨90, _⟩ => ⟨S4096, .i1⟩
  | .hbm, ⟨91, _⟩ => ⟨S4096x64, .f32⟩
  | .hbm, ⟨92, _⟩ => ⟨S4096x64, .i1⟩
  | .hbm, ⟨93, _⟩ => ⟨S_, .f32⟩
  | .hbm, ⟨94, _⟩ => ⟨S4096x64, .f32⟩
  | .hbm, ⟨95, _⟩ => ⟨S4096x64, .f32⟩
  | .hbm, ⟨96, _⟩ => ⟨S1x1, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x1, .f32⟩
  | .local _ .vmem, ⟨10, _⟩ => ⟨S1x1, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S1x1, .f32⟩
  | .local _ .vmem, ⟨18, _⟩ => ⟨S1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v15 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v16 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_cst_1 : Ref sig .tc := ⟨.hbm, 99, rfl⟩
abbrev main_v21 : Ref sig .tc := ⟨.hbm, 100, rfl⟩
abbrev main_v22 : Ref sig .tc := ⟨.hbm, 101, rfl⟩
abbrev main_cst_2 : Ref sig .tc := ⟨.hbm, 102, rfl⟩
abbrev main_v23 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_17 : BitVec 32 := 0#32
  let v45 : BitVec 1 := Scalar.cmpi .ne v44 c0_i32_17
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  reduces_S5000x1_S1 : S5000x1.Reduces [0] S1
  shapeCasts_S1_S1x1 : S1.ShapeCasts S1x1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  reduces_S512x1_S1 : S512x1.Reduces [0] S1
  shapeCasts_S1x1_S_ : S1x1.ShapeCasts S_
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S4096x64.size a
  hwx2_0 : ∀ i : grid2.Coords, EltTy.bits .f32 = 32 ∨ (Rect.block (s := S4096x64) S512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S4096x64.size a
  hwx2_1 : ∀ i : grid2.Coords, EltTy.bits .f32 = 32 ∨ (Rect.block (s := S4096x64) S512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S4096x64.size a
  hwx2_2 : ∀ i : grid2.Coords, EltTy.bits .f32 = 32 ∨ (Rect.block (s := S4096x64) S512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S5000x64.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v15) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x256 : Shape := ⟨2, ![100000, 256]⟩
abbrev S256x64 : Shape := ⟨2, ![256, 64]⟩
abbrev S3200000 : Shape := ⟨1, ![3200000]⟩
abbrev S4096 : Shape := ⟨1, ![4096]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S100000 : Shape := ⟨1, ![100000]⟩
abbrev S100000x1 : Shape := ⟨2, ![100000, 1]⟩
abbrev S4096x1 : Shape := ⟨2, ![4096, 1]⟩
abbrev S4096x64 : Shape := ⟨2, ![4096, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S100000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x64, .f32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x64, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x64, .f32⟩
  | .hbm, ⟨63, _⟩ => ⟨S4096x64, .f32⟩
  | .hbm, ⟨64, _⟩ => ⟨S_, .f32⟩
  | .hbm, ⟨65, _⟩ => ⟨S4096, .f32⟩
  | .hbm, ⟨66, _⟩ => ⟨S4096x64, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S4096, .i1⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S100000x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_cst_13 : Ref sig .tc := ⟨.hbm, 92, rfl⟩
abbrev main_v54 : Ref sig .tc := ⟨.hbm, 93, rfl⟩
abbrev main_v55 : Ref sig .tc := ⟨.hbm, 94, rfl⟩
abbrev main_cst_14 : Ref sig .tc := ⟨.hbm, 95, rfl⟩
abbrev main_v56 : Ref sig .tc := ⟨.hbm, 96, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  reducesTo_S4096_S_d0 : S4096.ReducesTo [0] S_
  reducesTo_S100000x64_S_d0_1 : S100000x64.ReducesTo [0, 1] S_
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S4096x1_S4096x64_1_0_n_n_0_1_164_wf : GatherDims.WF S100000x64 S4096x1 S4096x64 [1] [0] [] [0] [] 1 ![1, 64]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

class Facts : Prop extends Facts₀ where

variable [Facts]
-- ==== Proof.WR0.lean ====
import proofs.«420464_j10849087390119_2_alg».proof.Proof.Gen.Kernel.Launch
import proofs.«420464_j10849087390119_2_alg».proof.Proof.Gen.Kernel.Skeleton
import proofs.«420464_j10849087390119_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

def out0_2 (x0 : Vec F S5000x256 .f32) (x1 : Vec F S256x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in

theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := BI.Entails.refl _

theorem hout0 (c : Dev nD) : (dat0 V c).Φ (Fin.last cfg0.N) ⊢ (Pipeline.ΦA spec0 c : sProp 𝕄) := BI.Entails.refl _

end Cert.Kernel.Hand

end
-- ==== Proof.WR1.lean ====
import proofs.«420464_j10849087390119_2_alg».proof.Proof.Gen.Kernel.Launch
import proofs.«420464_j10849087390119_2_alg».proof.Proof.Gen.Kernel.Skeleton
import proofs.«420464_j10849087390119_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1

theorem hcond1_1 : ∀ t : Fin cfg1.N, cond1_1 (grid1.coords t) ↔ t.val % 20 = 19 :=
  (by decide +kernel : ∀ t : Fin grid1.N, cond1_1 (grid1.coords t) ↔ t.val % 20 = 19)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

abbrev VO1_1 : View sig .tc .vmem S5000x64 .f32 := (Memref.whole cc1_stg1_0 : Memref sig .tc .vmem S5000x64 .f32).view
abbrev VO1_2 : View sig .tc .vmem S1x1 .f32 := (Memref.whole cc1_stg2_0 : Memref sig .tc .vmem S1x1 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x1 .f32 := Memref.whole cc1_scratch0
abbrev VS1_0 : View sig .tc .vmem S1x1 .f32 := scM1_0.view

-- A scoped buffer held whole at some contents.
abbrev anyBuf1 (c : Dev nD) (r : Ref sig .tc) : sProp 𝕄 :=
  iprop(∃ f : Buf (Elt F) ((c : Thread nD τ).loc r), ((c : Thread nD τ).loc r) ↦{fullShare} f)

def restR1 (c : Dev nD) : sProp 𝕄 :=
  iprop(anyBuf1 c cc2_stg0_0 ∗ anyBuf1 c cc2_stg0_1 ∗ anyBuf1 c cc2_stg1_0 ∗ anyBuf1 c cc2_stg1_1 ∗ anyBuf1 c cc2_stg2_0 ∗ anyBuf1 c cc2_stg2_1 ∗ anyBuf1 c cc2_stg3_0 ∗ anyBuf1 c cc2_scratch0)

def restL1 (c : Dev nD) (P : sProp 𝕄) : sProp 𝕄 :=
  iprop(anyBuf1 c cc0_stg0_0 ∗ anyBuf1 c cc0_stg0_1 ∗ anyBuf1 c cc0_stg1_0 ∗ anyBuf1 c cc0_stg2_0 ∗ anyBuf1 c cc0_stg2_1 ∗ P)

theorem PhiA1_eq (c : Dev nD) :
    (Pipeline.ΦA spec1 c : sProp 𝕄)
      = iprop(restL1 c iprop((∃ d, owns (c : Thread nD τ) scM1_0 fullShare d) ∗ restR1 c) ∗ (∃ r, prngReg c r)) := by
  unfold Pipeline.ΦA restL1 restR1; rw [scopedRest1_eq]; simp only [scM1_0, owns_whole]; try rfl

section
variable (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S1x1 .f32) (harg4 : arg4.IsWhole)

set_option maxHeartbeats 1000000 in

noncomputable def kernelRun1_A (hc0 : cond1_0 i) (hc1 : ¬cond1_1 i)
    (x0 : Vec F S5000x64 .f32) :
    Σ' (L1 : List (View.Piece (Elt F) S5000x64 .f32)) (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, [], ?_, fun xi2 E K => ?run⟩
  case run =>
    simp only [cc1__norm_kernel_eq_skeleton]; unfold cc1__norm_kernel_skel
    unfold owns
    iintro ⟨⟨%f0, %hf0, H0⟩, ⟨%d1, %f1, -, H1⟩, ⟨%f2, %hf2, H2⟩, ⟨%ds0, %fs0, -, HS0⟩, Hk⟩
    obtain rfl := harg1.eq_unread hf0; obtain rfl := harg3.eq_unread hf2
    sl_exec (disch := first | exact hc0 | exact hc1)
    sl_step
    iapply Hk
    isplitl [H0]
    · iexists _; isplitr; · ipureintro; exact harg1.read_unread _
      iexact H0
    isplitl [H1]; · iexists _; iexact H1
    isplitl [H2]
    · iexists _; isplitr; · ipureintro; exact harg3.read_unread _
      iexact H2
    iexists _; iexact HS0

set_option maxHeartbeats 1000000 in

noncomputable def kernelRun1_B (hc0 : ¬cond1_0 i) (hc1 : ¬cond1_1 i)
    (x0 : Vec F S5000x64 .f32) (xs0 : Vec F S1x1 .f32) :
    Σ' (L1 : List (View.Piece (Elt F) S5000x64 .f32)) (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, [], ?_, fun xi2 E K => ?run⟩
  case run =>
    simp only [cc1__norm_kernel_eq_skeleton]; unfold cc1__norm_kernel_skel
    unfold owns
    iintro ⟨⟨%f0, %hf0, H0⟩, ⟨%d1, %f1, -, H1⟩, ⟨%f2, %hf2, H2⟩, ⟨%fs0, %hfs0, HS0⟩, Hk⟩
    obtain rfl := harg1.eq_unread hf0; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]; · iexists _; iexact H1
    isplitl [H2]
    · iexists _; isplitr; · ipureintro; exact harg3.read_unread _
      iexact H2
    iexists _; iexact HS0

set_option maxHeartbeats 1000000 in

noncomputable def kernelRun1_C (hc0 : ¬cond1_0 i) (hc1 : cond1_1 i)
    (x0 : Vec F S5000x64 .f32) (xs0 : Vec F S1x1 .f32) :
    Σ' (L1 : List (View.Piece (Elt F) S5000x64 .f32)) (L2 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, ?_, ?_, fun E K => ?run⟩
  case run =>
    simp only [cc1__norm_kernel_eq_skeleton]; unfold cc1__norm_kernel_skel
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

theorem cover1_A_1 (hc0 : cond1_0 i) (hc1 : ¬cond1_1 i) (x0 : Vec F S5000x64 .f32) (y : S5000x64.Idx) :
    ∃ pc ∈ (kernelRun1_A c i arg1 harg1 arg2 harg2 arg3 harg3 arg4 harg4 hc0 hc1 x0).1, y ∈ pc.1.set :=
  View.cover_of_tiledL (kernelRun1_A c i arg1 harg1 arg2 harg2 arg3 harg3 arg4 harg4 hc0 hc1 x0).1 S5000x64.size (by sl_kernel_rfl) y

def out1_A_1 (hc0 : cond1_0 i) (hc1 : ¬cond1_1 i) (x0 : Vec F S5000x64 .f32) : Vec F S5000x64 .f32 :=
  VO1_1.read (Elt F) (VO1_1.writes (Elt F) VO1_1.junk (kernelRun1_A c i arg1 harg1 arg2 harg2 arg3 harg3 arg4 harg4 hc0 hc1 x0).1)

def out1_A_2 (hc0 : cond1_0 i) (hc1 : ¬cond1_1 i) (x0 : Vec F S5000x64 .f32) : Vec F S1x1 .f32 :=
  VO1_2.read (Elt F) (VO1_2.writes (Elt F) VO1_2.junk (kernelRun1_A c i arg1 harg1 arg2 harg2 arg3 harg3 arg4 harg4 hc0 hc1 x0).2.1)

theorem scover1_A_0 (hc0 : cond1_0 i) (hc1 : ¬cond1_1 i) (x0 : Vec F S5000x64 .f32) (y : S1x1.Idx) :
    ∃ pc ∈ (kernelRun1_A c i arg1 harg1 arg2 harg2 arg3 harg3 arg4 harg4 hc0 hc1 x0).2.2.1, y ∈ pc.1.set :=
  View.cover_of_tiledL (kernelRun1_A c i arg1 harg1 arg2 harg2 arg3 harg3 arg4 harg4 hc0 hc1 x0).2.2.1 S1x1.size (by sl_kernel_rfl) y

def sout1_A_0 (hc0 : cond1_0 i) (hc1 : ¬cond1_1 i) (x0 : Vec F S5000x64 .f32) : Vec F S1x1 .f32 :=
  VS1_0.read (Elt F) (VS1_0.writes (Elt F) VS1_0.junk (kernelRun1_A c i arg1 harg1 arg2 harg2 arg3 harg3 arg4 harg4 hc0 hc1 x0).2.2.1)

theorem cover1_B_1 (hc0 : ¬cond1_0 i) (hc1 : ¬cond1_1 i) (x0 : Vec F S5000x64 .f32) (xs0 : Vec F S1x1 .f32) (y : S5000x64.Idx) :
    ∃ pc ∈ (kernelRun1_B c i arg1 harg1 arg2 harg2 arg3 harg3 arg4 harg4 hc0 hc1 x0 xs0).1, y ∈ pc.1.set :=
  View.cover_of_tiledL (kernelRun1_B c i arg1 harg1 arg2 harg2 arg3 harg3 arg4 harg4 hc0 hc1 x0 xs0).1 S5000x64.size (by sl_kernel_rfl) y

def out1_B_1 (hc0 : ¬cond1_0 i) (hc1 : ¬cond1_1 i) (x0 : Vec F S5000x64 .f32) (xs0 : Vec F S1x1 .f32) : Vec F S5000x64 .f32 :=
  VO1_1.read (Elt F) (VO1_1.writes (Elt F) VO1_1.junk (kernelRun1_B c i arg1 harg1 arg2 harg2 arg3 harg3 arg4 harg4 hc0 hc1 x0 xs0).1)

def out1_B_2 (hc0 : ¬cond1_0 i) (hc1 : ¬cond1_1 i) (x0 : Vec F S5000x64 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 xs0).2.1)

theorem scover1_B_0 (hc0 : ¬cond1_0 i) (hc1 : ¬cond1_1 i) (x0 : Vec F S5000x64 .f32) (xs0 : Vec F S1x1 .f32) (y : S1x1.Idx) :
    ∃ pc ∈ (kernelRun1_B c i arg1 harg1 arg2 harg2 arg3 harg3 arg4 harg4 hc0 hc1 x0 xs0).2.2.1, y ∈ pc.1.set :=
  View.cover_of_tiledL (kernelRun1_B c i arg1 harg1 arg2 harg2 arg3 harg3 arg4 harg4 hc0 hc1 x0 xs0).2.2.1 S1x1.size (by sl_kernel_rfl) y

def sout1_B_0 (hc0 : ¬cond1_0 i) (hc1 : ¬cond1_1 i) (x0 : Vec F S5000x64 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 xs0).2.2.1)

theorem cover1_C_1 (hc0 : ¬cond1_0 i) (hc1 : cond1_1 i) (x0 : Vec F S5000x64 .f32) (xs0 : Vec F S1x1 .f32) (y : S5000x64.Idx) :
    ∃ pc ∈ (kernelRun1_C c i arg1 harg1 arg2 harg2 arg3 harg3 arg4 harg4 hc0 hc1 x0 xs0).1, y ∈ pc.1.set :=
  View.cover_of_tiledL (kernelRun1_C c i arg1 harg1 arg2 harg2 arg3 harg3 arg4 harg4 hc0 hc1 x0 xs0).1 S5000x64.size (by sl_kernel_rfl) y

def out1_C_1 (hc0 : ¬cond1_0 i) (hc1 : cond1_1 i) (x0 : Vec F S5000x64 .f32) (xs0 : Vec F S1x1 .f32) : Vec F S5000x64 .f32 :=
  VO1_1.read (Elt F) (VO1_1.writes (Elt F) VO1_1.junk (kernelRun1_C c i arg1 harg1 arg2 harg2 arg3 harg3 arg4 harg4 hc0 hc1 x0 xs0).1)

theorem cover1_C_2 (hc0 : ¬cond1_0 i) (hc1 : cond1_1 i) (x0 : Vec F S5000x64 .f32) (xs0 : Vec F S1x1 .f32) (y : S1x1.Idx) :
    ∃ pc ∈ (kernelRun1_C c i arg1 harg1 arg2 harg2 arg3 harg3 arg4 harg4 hc0 hc1 x0 xs0).2.1, y ∈ pc.1.set :=
  View.cover_of_tiledL (kernelRun1_C c i arg1 harg1 arg2 harg2 arg3 harg3 arg4 harg4 hc0 hc1 x0 xs0).2.1 S1x1.size (by sl_kernel_rfl) y

def out1_C_2 (hc0 : ¬cond1_0 i) (hc1 : cond1_1 i) (x0 : Vec F S5000x64 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 xs0).2.1)

theorem scover1_C_0 (hc0 : ¬cond1_0 i) (hc1 : cond1_1 i) (x0 : Vec F S5000x64 .f32) (xs0 : Vec F S1x1 .f32) (y : S1x1.Idx) :
    ∃ pc ∈ (kernelRun1_C c i arg1 harg1 arg2 harg2 arg3 harg3 arg4 harg4 hc0 hc1 x0 xs0).2.2.1, y ∈ pc.1.set :=
  View.cover_of_tiledL (kernelRun1_C c i arg1 harg1 arg2 harg2 arg3 harg3 arg4 harg4 hc0 hc1 x0 xs0).2.2.1 S1x1.size (by sl_kernel_rfl) y

def sout1_C_0 (hc0 : ¬cond1_0 i) (hc1 : cond1_1 i) (x0 : Vec F S5000x64 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 xs0).2.2.1)

-- What the body leaves in the block output, the one-entry output and the scratch, as one triple per control case.
def outs1_A (hc0 : cond1_0 i) (hc1 : ¬cond1_1 i) (x0 : Vec F S5000x64 .f32) : Vec F S5000x64 .f32 × Vec F S1x1 .f32 × Vec F S1x1 .f32 :=
  (out1_A_1 c i arg1 harg1 arg2 harg2 arg3 harg3 arg4 harg4 hc0 hc1 x0, out1_A_2 c i arg1 harg1 arg2 harg2 arg3 harg3 arg4 harg4 hc0 hc1 x0, sout1_A_0 c i arg1 harg1 arg2 harg2 arg3 harg3 arg4 harg4 hc0 hc1 x0)

def outs1_B (hc0 : ¬cond1_0 i) (hc1 : ¬cond1_1 i) (x0 : Vec F S5000x64 .f32) (xs0 : Vec F S1x1 .f32) : Vec F S5000x64 .f32 × Vec F S1x1 .f32 × Vec F S1x1 .f32 :=
  (out1_B_1 c i arg1 harg1 arg2 harg2 arg3 harg3 arg4 harg4 hc0 hc1 x0 xs0, out1_B_2 c i arg1 harg1 arg2 harg2 arg3 harg3 arg4 harg4 hc0 hc1 x0 xs0, sout1_B_0 c i arg1 harg1 arg2 harg2 arg3 harg3 arg4 harg4 hc0 hc1 x0 xs0)

def outs1_C (hc0 : ¬cond1_0 i) (hc1 : cond1_1 i) (x0 : Vec F S5000x64 .f32) (xs0 : Vec F S1x1 .f32) : Vec F S5000x64 .f32 × Vec F S1x1 .f32 × Vec F S1x1 .f32 :=
  (out1_C_1 c i arg1 harg1 arg2 harg2 arg3 harg3 arg4 harg4 hc0 hc1 x0 xs0, out1_C_2 c i arg1 harg1 arg2 harg2 arg3 harg3 arg4 harg4 hc0 hc1 x0 xs0, sout1_C_0 c i arg1 harg1 arg2 harg2 arg3 harg3 arg4 harg4 hc0 hc1 x0 xs0)

end

theorem hc0_zero (hn : 0 < cfg1.N) : cond1_0 (grid1.coords (⟨0, hn⟩ : Fin cfg1.N)) := (hcond1_0 ⟨0, hn⟩).mpr (Nat.zero_mod _)
theorem nhc1_zero (hn : 0 < cfg1.N) : ¬cond1_1 (grid1.coords (⟨0, hn⟩ : Fin cfg1.N)) := fun h => by
  have := (hcond1_1 ⟨0, hn⟩).mp h; (try dsimp only at this); omega
theorem nhc0_succ (n : ℕ) (hn : n + 1 < cfg1.N) : ¬cond1_0 (grid1.coords (⟨n + 1, hn⟩ : Fin cfg1.N)) := fun h => by
  have := (hcond1_0 ⟨n + 1, hn⟩).mp h; have hN : n + 1 < 20 := lt_of_lt_of_eq hn (show cfg1.N = 20 from N_1); (try dsimp only at this); omega

def outsAt1 (c : Dev nD) : (n : ℕ) → n < cfg1.N → Vec F S5000x64 .f32 × Vec F S1x1 .f32 × Vec F S1x1 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (hc0_zero hn) (nhc1_zero hn) (iblk1 V c 0 ⟨0, hn⟩)
  | n + 1, hn =>
    if h1 : (n + 1) % 20 = 19 then
      outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) ((hcond1_1 ⟨n + 1, hn⟩).mpr h1) (iblk1 V c 0 ⟨n + 1, hn⟩) (outsAt1 c n (Nat.lt_of_succ_lt hn)).2.2
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) (fun h => h1 ((hcond1_1 ⟨n + 1, hn⟩).mp h)) (iblk1 V c 0 ⟨n + 1, hn⟩) (outsAt1 c n (Nat.lt_of_succ_lt hn)).2.2

theorem outsAt1_A (c : Dev nD) (t : Fin cfg1.N) (h0 : t.val = 0) (hc0 : cond1_0 (grid1.coords t)) (hc1 : ¬cond1_1 (grid1.coords t)) :
    outsAt1 V c t.val t.isLt = outs1_A c (grid1.coords t) (ms1_0 t) (hs1_0 t) (ms1_1 t) (hs1_1 t) (ms1_2 t) (hs1_2 t) scM1_0 (Memref.isWhole_whole _) hc0 hc1 (iblk1 V c 0 t) := by
  obtain ⟨n, hn⟩ := t
  cases n with
  | zero => exact rfl
  | succ n => exact absurd h0 (Nat.succ_ne_zero n)

theorem outsAt1_B (c : Dev nD) (t : Fin cfg1.N) (h0 : t.val ≠ 0) (h1 : ¬t.val % 20 = 19) (hc0 : ¬cond1_0 (grid1.coords t)) (hc1 : ¬cond1_1 (grid1.coords t)) :
    outsAt1 V c t.val t.isLt = outs1_B c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2 := by
  obtain ⟨n, hn⟩ := t
  cases n with
  | zero => exact absurd rfl h0
  | succ n => exact (dif_neg h1).trans rfl

theorem outsAt1_C (c : Dev nD) (t : Fin cfg1.N) (h0 : t.val ≠ 0) (h1 : t.val % 20 = 19) (hc0 : ¬cond1_0 (grid1.coords t)) (hc1 : cond1_1 (grid1.coords t)) :
    outsAt1 V c t.val t.isLt = outs1_C c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2 := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(restL1 c iprop(owns (c : Thread nD τ) scM1_0 fullShare ((outsAt1 V c n hn).2.2) ∗ restR1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restL1 c iprop(owns (c : Thread nD τ) scM1_0 fullShare ((outsAt1 V c n hn).2.2) ∗ restR1 c) ∗ (∃ r, prngReg c r)) := rfl

theorem PhiS1_pos (c : Dev nD) (n : ℕ) (h : n ≤ cfg1.N) (hz : n ≠ 0) :
    PhiS1 V c n h = iprop(restL1 c iprop(owns (c : Thread nD τ) scM1_0 fullShare ((outsAt1 V c (n - 1) (by omega)).2.2) ∗ restR1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 2 t (idleAt1_2_A t hc0 hc1) (noFlush1_2_A t hc0 hc1)]
    rw [outsAt1_A V c t hz hc0 hc1]
    unfold outs1_A out1_A_1 sout1_A_0; (try dsimp only)
    rw [PhiS1_castSucc V c t, PhiS1_zero V c _ _ hz, PhiA1_eq]
    unfold restL1
    iintro ⟨⟨⟨HR0, HR1, HR2, HR3, HR4, HS0, HR⟩, Hg⟩, Ho, ⟨%d0, H0⟩, ⟨%d1, H1⟩, ⟨%d2, H2⟩⟩
    iapply ((kernelRun1_A c (grid1.coords t) _ _ _ _ _ _ _ _ hc0 hc1 (iblk1 V c 0 t)).2.2.2 _ Set.univ _)
    isplitl [H0]; · iexact H0
    isplitl [H1]; · iexists _; iexact H1
    isplitl [H2]; · iexact H2
    isplitl [HS0]; · iexact HS0
    iintro ⟨H0, ⟨%e1, H1⟩, H2, ⟨%es0, HS0⟩⟩
    isplitl [HR0 HR1 HR2 HR3 HR4 HS0 HR Hg]
    · isplitr [Hg]
      · isplitl [HR0]; · iexact HR0
        isplitl [HR1]; · iexact HR1
        isplitl [HR2]; · iexact HR2
        isplitl [HR3]; · iexact HR3
        isplitl [HR4]; · iexact HR4
        isplitl [HS0]
        · unfold owns; iexists _; isplitr
          swap; · iexact HS0
          ipureintro; exact View.read_writes_of_cover _ _ _ _ _ (scover1_A_0 c _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _ _ _ _)
    iexists _; iexact H2
  · have hc0 : ¬cond1_0 (grid1.coords t) := fun h => by have := (hcond1_0 t).mp h; omega
    by_cases h1 : t.val % 20 = 19
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2_C t hc0 hc1], after1_2]
      rw [outsAt1_C V c t hz h1 hc0 hc1]
      unfold outs1_C out1_C_1 out1_C_2 sout1_C_0; (try dsimp only)
      rw [PhiS1_castSucc V c t, PhiS1_pos V c _ _ hz]
      unfold restL1
      iintro ⟨⟨⟨HR0, HR1, HR2, HR3, HR4, HS0, HR⟩, Hg⟩, Ho, ⟨%d0, H0⟩, ⟨%d1, H1⟩, ⟨%d2, H2⟩⟩
      iapply ((kernelRun1_C c (grid1.coords t) _ _ _ _ _ _ _ _ hc0 hc1 (iblk1 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HR0 HR1 HR2 HR3 HR4 HS0 HR Hg]
      · isplitr [Hg]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_C_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _)
      unfold owns; iexists _; isplitr
      swap; · iexact H2
      ipureintro; exact View.read_writes_of_cover _ _ _ _ _ (cover1_C_2 c _ _ _ _ _ _ _ _ _ _ _ _ _)
    · have hc1 : ¬cond1_1 (grid1.coords t) := fun h => h1 ((hcond1_1 t).mp h)
      rw [Dat.leavesExact_idle (dat1 V c) 2 t (idleAt1_2_B t hc0 hc1) (noFlush1_2_B t hc0 hc1)]
      rw [outsAt1_B V c t hz h1 hc0 hc1]
      unfold outs1_B out1_B_1 sout1_B_0; (try dsimp only)
      rw [PhiS1_castSucc V c t, PhiS1_pos V c _ _ hz]
      unfold restL1
      iintro ⟨⟨⟨HR0, HR1, HR2, HR3, HR4, HS0, HR⟩, Hg⟩, Ho, ⟨%d0, H0⟩, ⟨%d1, H1⟩, ⟨%d2, H2⟩⟩
      iapply ((kernelRun1_B c (grid1.coords t) _ _ _ _ _ _ _ _ hc0 hc1 (iblk1 V c 0 t) _).2.2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HR0 HR1 HR2 HR3 HR4 HS0 HR Hg]
      · isplitr [Hg]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_B_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_B_1 c _ _ _ _ _ _ _ _ _ _ _ _ _)
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold restL1
  iintro ⟨⟨HR0, HR1, HR2, HR3, HR4, HS0, HR⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HS0]; · iexists _; iexact HS0
    iexact HR
  iexact Hg

theorem hout1 (c : Dev nD) : (dat1 V c).Φ (Fin.last cfg1.N) ⊢ (Pipeline.ΦA spec1 c : sProp 𝕄) :=
  Phi_out1 V c _ (by rw [Fin.val_last]; have : cfg1.N = 20 := N_1; omega)

end Cert.Kernel.Hand

end
-- ==== Proof.WR2.lean ====
import proofs.«420464_j10849087390119_2_alg».proof.Proof.Gen.Kernel.Launch
import proofs.«420464_j10849087390119_2_alg».proof.Proof.Gen.Kernel.Skeleton
import proofs.«420464_j10849087390119_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1x1 .f32 := (Memref.whole cc2_stg3_0 : Memref sig .tc .vmem S1x1 .f32).view
abbrev ms2_0 (t : Fin cfg2.N) : Memref sig .tc .vmem S512x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

abbrev scM2_0 : Memref sig .tc .vmem S1x1 .f32 := Memref.whole cc2_scratch0
abbrev VS2_0 : View sig .tc .vmem S1x1 .f32 := scM2_0.view

-- A scoped buffer held whole at some contents.
abbrev anyBuf2 (c : Dev nD) (r : Ref sig .tc) : sProp 𝕄 :=
  iprop(∃ f : Buf (Elt F) ((c : Thread nD τ).loc r), ((c : Thread nD τ).loc r) ↦{fullShare} f)

def rest2 (c : Dev nD) : sProp 𝕄 :=
  iprop(anyBuf2 c cc0_stg0_0
    ∗ anyBuf2 c cc0_stg0_1
    ∗ anyBuf2 c cc0_stg1_0
    ∗ anyBuf2 c cc0_stg2_0
    ∗ anyBuf2 c cc0_stg2_1
    ∗ anyBuf2 c cc1_stg0_0
    ∗ anyBuf2 c cc1_stg0_1
    ∗ anyBuf2 c cc1_stg1_0
    ∗ anyBuf2 c cc1_stg1_1
    ∗ anyBuf2 c cc1_stg2_0
    ∗ anyBuf2 c cc1_scratch0)

theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole]
  refine BI.equiv_iff.mp ⟨?_, ?_⟩
  · show (_ : sProp 𝕄) ⊢ _
    iintro ⟨⟨R1, R2, R3, R4, R5, R6, R7, R8, R9, R10, R11, HS⟩, Hg⟩
    isplitr [Hg]
    · isplitr [HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      · iexact HS
    · iexact Hg
  · show (_ : sProp 𝕄) ⊢ _
    iintro ⟨⟨⟨R1, R2, R3, R4, R5, R6, R7, R8, R9, R10, R11⟩, HS⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact HS
    · iexact Hg

section
variable (c : Dev nD) (i : grid2.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole)

set_option maxHeartbeats 1000000 in

noncomputable def kernelRun2_A (hc0 : cond2_0 i) (hc1 : ¬cond2_1 i)
    (x0 : Vec F S512x64 .f32) (x1 : Vec F S512x64 .f32) (x2 : Vec F S512x64 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨[], ?_, fun xi3 E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun2_B (hc0 : ¬cond2_0 i) (hc1 : ¬cond2_1 i)
    (x0 : Vec F S512x64 .f32) (x1 : Vec F S512x64 .f32) (x2 : Vec F S512x64 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨[], ?_, fun xi3 E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun2_C (hc0 : ¬cond2_0 i) (hc1 : cond2_1 i)
    (x0 : Vec F S512x64 .f32) (x1 : Vec F S512x64 .f32) (x2 : Vec F S512x64 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨?_, ?_, fun E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

def out2_A_3 (hc0 : cond2_0 i) (hc1 : ¬cond2_1 i) (x0 : Vec F S512x64 .f32) (x1 : Vec F S512x64 .f32) (x2 : Vec F S512x64 .f32) : Vec F S1x1 .f32 :=
  VO2_3.read (Elt F) (VO2_3.writes (Elt F) VO2_3.junk (kernelRun2_A c i arg1 harg1 arg2 harg2 arg3 harg3 arg4 harg4 arg5 harg5 hc0 hc1 x0 x1 x2).1)

theorem scover2_A_0 (hc0 : cond2_0 i) (hc1 : ¬cond2_1 i) (x0 : Vec F S512x64 .f32) (x1 : Vec F S512x64 .f32) (x2 : Vec F S512x64 .f32) (y : S1x1.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x1.size (by sl_kernel_rfl) y

def sout2_A_0 (hc0 : cond2_0 i) (hc1 : ¬cond2_1 i) (x0 : Vec F S512x64 .f32) (x1 : Vec F S512x64 .f32) (x2 : Vec F S512x64 .f32) : Vec F S1x1 .f32 :=
  VS2_0.read (Elt F) (VS2_0.writes (Elt F) VS2_0.junk (kernelRun2_A c i arg1 harg1 arg2 harg2 arg3 harg3 arg4 harg4 arg5 harg5 hc0 hc1 x0 x1 x2).2.1)

def out2_B_3 (hc0 : ¬cond2_0 i) (hc1 : ¬cond2_1 i) (x0 : Vec F S512x64 .f32) (x1 : Vec F S512x64 .f32) (x2 : Vec F S512x64 .f32) (xs0 : Vec F S1x1 .f32) : Vec F S1x1 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (hc0 : ¬cond2_0 i) (hc1 : ¬cond2_1 i) (x0 : Vec F S512x64 .f32) (x1 : Vec F S512x64 .f32) (x2 : Vec F S512x64 .f32) (xs0 : Vec F S1x1 .f32) (y : S1x1.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x1.size (by sl_kernel_rfl) y

def sout2_B_0 (hc0 : ¬cond2_0 i) (hc1 : ¬cond2_1 i) (x0 : Vec F S512x64 .f32) (x1 : Vec F S512x64 .f32) (x2 : Vec F S512x64 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 hc0 hc1 x0 x1 x2 xs0).2.1)

theorem cover2_C_3 (hc0 : ¬cond2_0 i) (hc1 : cond2_1 i) (x0 : Vec F S512x64 .f32) (x1 : Vec F S512x64 .f32) (x2 : Vec F S512x64 .f32) (xs0 : Vec F S1x1 .f32) (y : S1x1.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x1.size (by sl_kernel_rfl) y

def out2_C_3 (hc0 : ¬cond2_0 i) (hc1 : cond2_1 i) (x0 : Vec F S512x64 .f32) (x1 : Vec F S512x64 .f32) (x2 : Vec F S512x64 .f32) (xs0 : Vec F S1x1 .f32) : Vec F S1x1 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (hc0 : ¬cond2_0 i) (hc1 : cond2_1 i) (x0 : Vec F S512x64 .f32) (x1 : Vec F S512x64 .f32) (x2 : Vec F S512x64 .f32) (xs0 : Vec F S1x1 .f32) (y : S1x1.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x1.size (by sl_kernel_rfl) y

def sout2_C_0 (hc0 : ¬cond2_0 i) (hc1 : cond2_1 i) (x0 : Vec F S512x64 .f32) (x1 : Vec F S512x64 .f32) (x2 : Vec F S512x64 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 hc0 hc1 x0 x1 x2 xs0).2.1)

-- What the body leaves in the one-entry output and the scratch, as one pair per control case.
def outs2_A (hc0 : cond2_0 i) (hc1 : ¬cond2_1 i) (x0 : Vec F S512x64 .f32) (x1 : Vec F S512x64 .f32) (x2 : Vec F S512x64 .f32) : Vec F S1x1 .f32 × Vec F S1x1 .f32 :=
  (out2_A_3 c i arg1 harg1 arg2 harg2 arg3 harg3 arg4 harg4 arg5 harg5 hc0 hc1 x0 x1 x2, sout2_A_0 c i arg1 harg1 arg2 harg2 arg3 harg3 arg4 harg4 arg5 harg5 hc0 hc1 x0 x1 x2)

def outs2_B (hc0 : ¬cond2_0 i) (hc1 : ¬cond2_1 i) (x0 : Vec F S512x64 .f32) (x1 : Vec F S512x64 .f32) (x2 : Vec F S512x64 .f32) (xs0 : Vec F S1x1 .f32) : Vec F S1x1 .f32 × Vec F S1x1 .f32 :=
  (out2_B_3 c i arg1 harg1 arg2 harg2 arg3 harg3 arg4 harg4 arg5 harg5 hc0 hc1 x0 x1 x2 xs0, sout2_B_0 c i arg1 harg1 arg2 harg2 arg3 harg3 arg4 harg4 arg5 harg5 hc0 hc1 x0 x1 x2 xs0)

def outs2_C (hc0 : ¬cond2_0 i) (hc1 : cond2_1 i) (x0 : Vec F S512x64 .f32) (x1 : Vec F S512x64 .f32) (x2 : Vec F S512x64 .f32) (xs0 : Vec F S1x1 .f32) : Vec F S1x1 .f32 × Vec F S1x1 .f32 :=
  (out2_C_3 c i arg1 harg1 arg2 harg2 arg3 harg3 arg4 harg4 arg5 harg5 hc0 hc1 x0 x1 x2 xs0, sout2_C_0 c i arg1 harg1 arg2 harg2 arg3 harg3 arg4 harg4 arg5 harg5 hc0 hc1 x0 x1 x2 xs0)

end

def outsAt2 (c : Dev nD) : (n : ℕ) → n < cfg2.N → Vec F S1x1 .f32 × Vec F S1x1 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      False.elim (by have hN : n + 1 < 8 := lt_of_lt_of_eq hn (show cfg2.N = 8 from N_2); omega)
    else
      if h1 : (n + 1) % 8 = 7 then
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2
      else
        outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2

theorem outsAt2_A (c : Dev nD) (t : Fin cfg2.N) (h0 : t.val % 8 = 0) (h1 : ¬t.val % 8 = 7) :
    outsAt2 V c t.val t.isLt = outs2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (by exfalso; have hN : n + 1 < 8 := lt_of_lt_of_eq hn (show cfg2.N = 8 from N_2); (try dsimp only at h0); omega)

theorem outsAt2_B (c : Dev nD) (t : Fin cfg2.N) (h0 : ¬t.val % 8 = 0) (h1 : ¬t.val % 8 = 7) :
    outsAt2 V c t.val t.isLt = outs2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = outs2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
          unfold Dat.leavesExact; rw [liveAt2_0 t], after2_0]
  rw [show (dat2 V c).leavesExact 1 t = owns (c : Thread nD τ) (ms2_1 t) fullShare ((dat2 V c).after 1 t) from by
          unfold Dat.leavesExact; rw [liveAt2_1 t], after2_1]
  rw [show (dat2 V c).leavesExact 2 t = owns (c : Thread nD τ) (ms2_2 t) fullShare ((dat2 V c).after 2 t) from by
          unfold Dat.leavesExact; rw [liveAt2_2 t], after2_2]
  by_cases h0 : t.val % 8 = 0
  · have h1 : ¬t.val % 8 = 7 := by omega
    have hz : t.val = 0 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold outs2_A sout2_A_0; (try dsimp only)
    rw [PhiS2_castSucc V c t, PhiS2_zero V c _ _ hz, PhiA2_eq]
    iintro ⟨⟨⟨HR, HS0⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold outs2_C out2_C_3 sout2_C_0; (try dsimp only)
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 _ _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold outs2_B sout2_B_0; (try dsimp only)
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.Kernel.Hand

end
-- ==== Proof.WRun.lean ====
import proofs.«420464_j10849087390119_2_alg».proof.Proof.WR0
import proofs.«420464_j10849087390119_2_alg».proof.Proof.WR1
import proofs.«420464_j10849087390119_2_alg».proof.Proof.WR2
import proofs.«420464_j10849087390119_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev W2 : Dev nD → Valuation τ sig (Elt F) := fun c => StableHlo.after hostOps1 (W1 m c)
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb

abbrev W8 : Dev nD → Valuation τ sig (Elt F) := fun c => StableHlo.after hostOps3 (W7 m c)

-- A buffer that no later host operation writes and that is no window's array of the two later regions is, at the end, what the first region left.
theorem W8_keep (c : Dev nD) (r : Ref sig .tc)
    (h : r ∉ hostOps3_W ∧ (∀ w, Pipeline.arrRef spec2 w ≠ r) ∧ r ∉ hostOps2_2_W ∧ r ∉ hostOps2_1_W ∧ r ∉ hostOps2_W
      ∧ (∀ w, Pipeline.arrRef spec1 w ≠ r) ∧ r ∉ hostOps1_W) :
    W8 m c (Proc.devRef .tc r) = W1 m c (Proc.devRef .tc r) :=
  (StableHlo.after_of_writes_sub hostOps3 _ hostOps3_writes h.1).trans <| (W7_of_ne m c r h.2.1).trans <|
  (StableHlo.after_of_writes_sub hostOps2_2 _ hostOps2_2_writes h.2.2.1).trans <|
  (StableHlo.after_of_writes_sub hostOps2_1 _ hostOps2_1_writes h.2.2.2.1).trans <|
  (StableHlo.after_of_writes_sub hostOps2 _ hostOps2_writes h.2.2.2.2.1).trans <| (W3_of_ne m c r h.2.2.2.2.2.1).trans <|
  StableHlo.after_of_writes_sub hostOps1 _ hostOps1_writes h.2.2.2.2.2.2

theorem W8_main_arg0 (c : Dev nD) : W8 m c (Proc.devRef .tc main_arg0) = m ((c : Thread nD τ).loc main_arg0) :=
  (W8_keep m c main_arg0 (by decide)).trans ((W1_arr m c 0).trans (((dat0 (V0 m) c).arrAt_in 0 rfl _).trans (A_eq0 (V0 m) c 0)))
theorem W8_main_arg1 (c : Dev nD) : W8 m c (Proc.devRef .tc main_arg1) = m ((c : Thread nD τ).loc main_arg1) :=
  (W8_keep m c main_arg1 (by decide)).trans ((W1_arr m c 1).trans (((dat0 (V0 m) c).arrAt_in 1 rfl _).trans (A_eq0 (V0 m) c 1)))
theorem W8_main_arg2 (c : Dev nD) : W8 m c (Proc.devRef .tc main_arg2) = m ((c : Thread nD τ).loc main_arg2) :=
  (W8_keep m c main_arg2 (by decide)).trans (W1_of_ne m c main_arg2 (by decide))
theorem W8_main_arg3 (c : Dev nD) : W8 m c (Proc.devRef .tc main_arg3) = m ((c : Thread nD τ).loc main_arg3) :=
  (W8_keep m c main_arg3 (by decide)).trans (W1_of_ne m c main_arg3 (by decide))
theorem W8_main_arg4 (c : Dev nD) : W8 m c (Proc.devRef .tc main_arg4) = m ((c : Thread nD τ).loc main_arg4) :=
  (W8_keep m c main_arg4 (by decide)).trans (W1_of_ne m c main_arg4 (by decide))
theorem W8_main_arg5 (c : Dev nD) : W8 m c (Proc.devRef .tc main_arg5) = m ((c : Thread nD τ).loc main_arg5) :=
  (W8_keep m c main_arg5 (by decide)).trans (W1_of_ne m c main_arg5 (by decide))
theorem W8_main_arg6 (c : Dev nD) : W8 m c (Proc.devRef .tc main_arg6) = m ((c : Thread nD τ).loc main_arg6) :=
  (W8_keep m c main_arg6 (by decide)).trans (W1_of_ne m c main_arg6 (by decide))
theorem W8_main_arg7 (c : Dev nD) : W8 m c (Proc.devRef .tc main_arg7) = m ((c : Thread nD τ).loc main_arg7) :=
  (W8_keep m c main_arg7 (by decide)).trans (W1_of_ne m c main_arg7 (by decide))

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V6 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m c) ∗ ∃ r, prngReg c r)

abbrev Vof (W : Dev nD → Valuation τ sig (Elt F)) : (c : Dev nD) → (b : Ref sig .tc) → Buf (Elt F) ((c : Thread nD τ).loc b) := fun c b => W c b

-- A kernel region as one step between two boundary contents: its windows' arrays go from the entry contents to what its grid points leave there, every other buffer is unchanged.
set_option backward.isDefEq.respectTransparency.types false in
def reg (p : Fin 3) (lf : Pipeline.LaunchFacts (nD := nD) (τ := τ) cfgs p) (Wi Wo : Dev nD → Valuation τ sig (Elt F))
    (hb : ∀ c, BodyObligation (pdats m p c) (defs₀ (F := F)) 𝒱₀ () Set.univ)
    (howed : ∀ c t, (pdats m p c).owed t = 0) (hrec : ∀ c t, (pdats m p c).recorded t = Set.univ) (hq : ∀ c w, (pdats m p c).q w = fullShare)
    (hA : ∀ c w, (pdats m p c).A w = Vof Wi c (Pipeline.arrRef (cfgs p).spec w))
    (harr : ∀ c w, Vof Wo c (Pipeline.arrRef (cfgs p).spec w) = (pdats m p c).arrAt w (cfgs p).N)
    (hne : ∀ c (b : Ref sig .tc), (∀ w, Pipeline.arrRef (cfgs p).spec w ≠ b) → Vof Wo c b = Vof Wi c b)
    (hΦi : ∀ c, (Pipeline.ΦA (cfgs p).spec c : sProp 𝕄) ⊢ (pdats m p c).Φ 0)
    (hΦo : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vof Wi c)
  hentry c := by
    rw [Pipeline.ownSems0_none]
    have hsplit := Pipeline.arrays_of_unscopedBufs (p := p) (pcfgs (F := F)) adm (pdats m) lf.win lf.arr_whole c
      ((pdats m p c).share_full (hq c)) (Vof Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    iintro ⟨Hp, -, Hr⟩
    iapply (hΦi c)
    unfold Pipeline.ΦA
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Vof Wi c) (Vof Wo c) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .region (reg m 0 launch0 (W0 m) (W1 m) (body_obligation0 (V0 m)) (fun _ _ => rfl) (fun _ _ => rfl) (fun _ _ => rfl) (A_eq0 (V0 m)) (W1_arr m) (W1_of_ne m) (hin0 (V0 m)) (hout0 (V0 m))),
    .host (hseg hostOps1 hostOps1_sub hostOps1_fresh (W1 m)),
    .region (reg m 1 launch1 (W2 m) (W3 m) (body_obligation1 (V2 m)) (fun _ _ => rfl) (fun _ _ => rfl) (fun _ _ => rfl) (A_eq1 (V2 m)) (W3_arr m) (W3_of_ne m) (hin1 (V2 m)) (hout1 (V2 m))),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg m 2 launch2 (W6 m) (W7 m) (body_obligation2 (V6 m)) (fun _ _ => rfl) (fun _ _ => rfl) (fun _ _ => rfl) (A_eq2 (V6 m)) (W7_arr m) (W7_of_ne m) (hin2 (V6 m)) (hout2 (V6 m))),
    .host (hseg hostOps3 hostOps3_sub hostOps3_fresh (W7 m)) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ (iprop(Tₙ m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.Kernel.Hand

end
-- ==== Proof.R0.lean ====
import proofs.«420464_j10849087390119_2_alg».proof.Proof.Gen.KernelIdeal.Launch
import proofs.«420464_j10849087390119_2_alg».proof.Proof.Gen.KernelIdeal.Skeleton
import proofs.«420464_j10849087390119_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

def out0_2 (x0 : Vec F S5000x256 .f32) (x1 : Vec F S256x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in

theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := BI.Entails.refl _

theorem hout0 (c : Dev nD) : (dat0 V c).Φ (Fin.last cfg0.N) ⊢ (Pipeline.ΦA spec0 c : sProp 𝕄) := BI.Entails.refl _

end Cert.KernelIdeal.Hand

end
-- ==== Proof.R1.lean ====
import proofs.«420464_j10849087390119_2_alg».proof.Proof.Gen.KernelIdeal.Launch
import proofs.«420464_j10849087390119_2_alg».proof.Proof.Gen.KernelIdeal.Skeleton
import proofs.«420464_j10849087390119_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1

theorem hcond1_1 : ∀ t : Fin cfg1.N, cond1_1 (grid1.coords t) ↔ t.val % 20 = 19 :=
  (by decide +kernel : ∀ t : Fin grid1.N, cond1_1 (grid1.coords t) ↔ t.val % 20 = 19)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

abbrev VO1_1 : View sig .tc .vmem S5000x64 .f32 := (Memref.whole cc1_stg1_0 : Memref sig .tc .vmem S5000x64 .f32).view
abbrev VO1_2 : View sig .tc .vmem S1x1 .f32 := (Memref.whole cc1_stg2_0 : Memref sig .tc .vmem S1x1 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x1 .f32 := Memref.whole cc1_scratch0
abbrev VS1_0 : View sig .tc .vmem S1x1 .f32 := scM1_0.view

-- A scoped buffer held whole at some contents.
abbrev anyBuf1 (c : Dev nD) (r : Ref sig .tc) : sProp 𝕄 :=
  iprop(∃ f : Buf (Elt F) ((c : Thread nD τ).loc r), ((c : Thread nD τ).loc r) ↦{fullShare} f)

def restR1 (c : Dev nD) : sProp 𝕄 :=
  iprop(anyBuf1 c cc2_stg0_0 ∗ anyBuf1 c cc2_stg0_1 ∗ anyBuf1 c cc2_stg1_0 ∗ anyBuf1 c cc2_stg1_1 ∗ anyBuf1 c cc2_stg2_0 ∗ anyBuf1 c cc2_stg2_1 ∗ anyBuf1 c cc2_stg3_0 ∗ anyBuf1 c cc2_scratch0)

def restL1 (c : Dev nD) (P : sProp 𝕄) : sProp 𝕄 :=
  iprop(anyBuf1 c cc0_stg0_0 ∗ anyBuf1 c cc0_stg0_1 ∗ anyBuf1 c cc0_stg1_0 ∗ anyBuf1 c cc0_stg2_0 ∗ anyBuf1 c cc0_stg2_1 ∗ P)

theorem PhiA1_eq (c : Dev nD) :
    (Pipeline.ΦA spec1 c : sProp 𝕄)
      = iprop(restL1 c iprop((∃ d, owns (c : Thread nD τ) scM1_0 fullShare d) ∗ restR1 c) ∗ (∃ r, prngReg c r)) := by
  unfold Pipeline.ΦA restL1 restR1; rw [scopedRest1_eq]; simp only [scM1_0, owns_whole]; try rfl

section
variable (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S1x1 .f32) (harg4 : arg4.IsWhole)

set_option maxHeartbeats 1000000 in

noncomputable def kernelRun1_A (hc0 : cond1_0 i) (hc1 : ¬cond1_1 i)
    (x0 : Vec F S5000x64 .f32) :
    Σ' (L1 : List (View.Piece (Elt F) S5000x64 .f32)) (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, [], ?_, fun xi2 E K => ?run⟩
  case run =>
    simp only [cc1__norm_kernel_eq_skeleton]; unfold cc1__norm_kernel_skel
    unfold owns
    iintro ⟨⟨%f0, %hf0, H0⟩, ⟨%d1, %f1, -, H1⟩, ⟨%f2, %hf2, H2⟩, ⟨%ds0, %fs0, -, HS0⟩, Hk⟩
    obtain rfl := harg1.eq_unread hf0; obtain rfl := harg3.eq_unread hf2
    sl_exec (disch := first | exact hc0 | exact hc1)
    sl_step
    iapply Hk
    isplitl [H0]
    · iexists _; isplitr; · ipureintro; exact harg1.read_unread _
      iexact H0
    isplitl [H1]; · iexists _; iexact H1
    isplitl [H2]
    · iexists _; isplitr; · ipureintro; exact harg3.read_unread _
      iexact H2
    iexists _; iexact HS0

set_option maxHeartbeats 1000000 in

noncomputable def kernelRun1_B (hc0 : ¬cond1_0 i) (hc1 : ¬cond1_1 i)
    (x0 : Vec F S5000x64 .f32) (xs0 : Vec F S1x1 .f32) :
    Σ' (L1 : List (View.Piece (Elt F) S5000x64 .f32)) (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, [], ?_, fun xi2 E K => ?run⟩
  case run =>
    simp only [cc1__norm_kernel_eq_skeleton]; unfold cc1__norm_kernel_skel
    unfold owns
    iintro ⟨⟨%f0, %hf0, H0⟩, ⟨%d1, %f1, -, H1⟩, ⟨%f2, %hf2, H2⟩, ⟨%fs0, %hfs0, HS0⟩, Hk⟩
    obtain rfl := harg1.eq_unread hf0; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]; · iexists _; iexact H1
    isplitl [H2]
    · iexists _; isplitr; · ipureintro; exact harg3.read_unread _
      iexact H2
    iexists _; iexact HS0

set_option maxHeartbeats 1000000 in

noncomputable def kernelRun1_C (hc0 : ¬cond1_0 i) (hc1 : cond1_1 i)
    (x0 : Vec F S5000x64 .f32) (xs0 : Vec F S1x1 .f32) :
    Σ' (L1 : List (View.Piece (Elt F) S5000x64 .f32)) (L2 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__norm_kernel i arg1 harg1 arg2 harg2 arg3 harg3 arg4 harg4) K } := by
  refine ⟨?_, ?_, ?_, fun E K => ?run⟩
  case run =>
    simp only [cc1__norm_kernel_eq_skeleton]; unfold cc1__norm_kernel_skel
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

theorem cover1_A_1 (hc0 : cond1_0 i) (hc1 : ¬cond1_1 i) (x0 : Vec F S5000x64 .f32) (y : S5000x64.Idx) :
    ∃ pc ∈ (kernelRun1_A c i arg1 harg1 arg2 harg2 arg3 harg3 arg4 harg4 hc0 hc1 x0).1, y ∈ pc.1.set :=
  View.cover_of_tiledL (kernelRun1_A c i arg1 harg1 arg2 harg2 arg3 harg3 arg4 harg4 hc0 hc1 x0).1 S5000x64.size (by sl_kernel_rfl) y

def out1_A_1 (hc0 : cond1_0 i) (hc1 : ¬cond1_1 i) (x0 : Vec F S5000x64 .f32) : Vec F S5000x64 .f32 :=
  VO1_1.read (Elt F) (VO1_1.writes (Elt F) VO1_1.junk (kernelRun1_A c i arg1 harg1 arg2 harg2 arg3 harg3 arg4 harg4 hc0 hc1 x0).1)

def out1_A_2 (hc0 : cond1_0 i) (hc1 : ¬cond1_1 i) (x0 : Vec F S5000x64 .f32) : Vec F S1x1 .f32 :=
  VO1_2.read (Elt F) (VO1_2.writes (Elt F) VO1_2.junk (kernelRun1_A c i arg1 harg1 arg2 harg2 arg3 harg3 arg4 harg4 hc0 hc1 x0).2.1)

theorem scover1_A_0 (hc0 : cond1_0 i) (hc1 : ¬cond1_1 i) (x0 : Vec F S5000x64 .f32) (y : S1x1.Idx) :
    ∃ pc ∈ (kernelRun1_A c i arg1 harg1 arg2 harg2 arg3 harg3 arg4 harg4 hc0 hc1 x0).2.2.1, y ∈ pc.1.set :=
  View.cover_of_tiledL (kernelRun1_A c i arg1 harg1 arg2 harg2 arg3 harg3 arg4 harg4 hc0 hc1 x0).2.2.1 S1x1.size (by sl_kernel_rfl) y

def sout1_A_0 (hc0 : cond1_0 i) (hc1 : ¬cond1_1 i) (x0 : Vec F S5000x64 .f32) : Vec F S1x1 .f32 :=
  VS1_0.read (Elt F) (VS1_0.writes (Elt F) VS1_0.junk (kernelRun1_A c i arg1 harg1 arg2 harg2 arg3 harg3 arg4 harg4 hc0 hc1 x0).2.2.1)

theorem cover1_B_1 (hc0 : ¬cond1_0 i) (hc1 : ¬cond1_1 i) (x0 : Vec F S5000x64 .f32) (xs0 : Vec F S1x1 .f32) (y : S5000x64.Idx) :
    ∃ pc ∈ (kernelRun1_B c i arg1 harg1 arg2 harg2 arg3 harg3 arg4 harg4 hc0 hc1 x0 xs0).1, y ∈ pc.1.set :=
  View.cover_of_tiledL (kernelRun1_B c i arg1 harg1 arg2 harg2 arg3 harg3 arg4 harg4 hc0 hc1 x0 xs0).1 S5000x64.size (by sl_kernel_rfl) y

def out1_B_1 (hc0 : ¬cond1_0 i) (hc1 : ¬cond1_1 i) (x0 : Vec F S5000x64 .f32) (xs0 : Vec F S1x1 .f32) : Vec F S5000x64 .f32 :=
  VO1_1.read (Elt F) (VO1_1.writes (Elt F) VO1_1.junk (kernelRun1_B c i arg1 harg1 arg2 harg2 arg3 harg3 arg4 harg4 hc0 hc1 x0 xs0).1)

def out1_B_2 (hc0 : ¬cond1_0 i) (hc1 : ¬cond1_1 i) (x0 : Vec F S5000x64 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 xs0).2.1)

theorem scover1_B_0 (hc0 : ¬cond1_0 i) (hc1 : ¬cond1_1 i) (x0 : Vec F S5000x64 .f32) (xs0 : Vec F S1x1 .f32) (y : S1x1.Idx) :
    ∃ pc ∈ (kernelRun1_B c i arg1 harg1 arg2 harg2 arg3 harg3 arg4 harg4 hc0 hc1 x0 xs0).2.2.1, y ∈ pc.1.set :=
  View.cover_of_tiledL (kernelRun1_B c i arg1 harg1 arg2 harg2 arg3 harg3 arg4 harg4 hc0 hc1 x0 xs0).2.2.1 S1x1.size (by sl_kernel_rfl) y

def sout1_B_0 (hc0 : ¬cond1_0 i) (hc1 : ¬cond1_1 i) (x0 : Vec F S5000x64 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 xs0).2.2.1)

theorem cover1_C_1 (hc0 : ¬cond1_0 i) (hc1 : cond1_1 i) (x0 : Vec F S5000x64 .f32) (xs0 : Vec F S1x1 .f32) (y : S5000x64.Idx) :
    ∃ pc ∈ (kernelRun1_C c i arg1 harg1 arg2 harg2 arg3 harg3 arg4 harg4 hc0 hc1 x0 xs0).1, y ∈ pc.1.set :=
  View.cover_of_tiledL (kernelRun1_C c i arg1 harg1 arg2 harg2 arg3 harg3 arg4 harg4 hc0 hc1 x0 xs0).1 S5000x64.size (by sl_kernel_rfl) y

def out1_C_1 (hc0 : ¬cond1_0 i) (hc1 : cond1_1 i) (x0 : Vec F S5000x64 .f32) (xs0 : Vec F S1x1 .f32) : Vec F S5000x64 .f32 :=
  VO1_1.read (Elt F) (VO1_1.writes (Elt F) VO1_1.junk (kernelRun1_C c i arg1 harg1 arg2 harg2 arg3 harg3 arg4 harg4 hc0 hc1 x0 xs0).1)

theorem cover1_C_2 (hc0 : ¬cond1_0 i) (hc1 : cond1_1 i) (x0 : Vec F S5000x64 .f32) (xs0 : Vec F S1x1 .f32) (y : S1x1.Idx) :
    ∃ pc ∈ (kernelRun1_C c i arg1 harg1 arg2 harg2 arg3 harg3 arg4 harg4 hc0 hc1 x0 xs0).2.1, y ∈ pc.1.set :=
  View.cover_of_tiledL (kernelRun1_C c i arg1 harg1 arg2 harg2 arg3 harg3 arg4 harg4 hc0 hc1 x0 xs0).2.1 S1x1.size (by sl_kernel_rfl) y

def out1_C_2 (hc0 : ¬cond1_0 i) (hc1 : cond1_1 i) (x0 : Vec F S5000x64 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 xs0).2.1)

theorem scover1_C_0 (hc0 : ¬cond1_0 i) (hc1 : cond1_1 i) (x0 : Vec F S5000x64 .f32) (xs0 : Vec F S1x1 .f32) (y : S1x1.Idx) :
    ∃ pc ∈ (kernelRun1_C c i arg1 harg1 arg2 harg2 arg3 harg3 arg4 harg4 hc0 hc1 x0 xs0).2.2.1, y ∈ pc.1.set :=
  View.cover_of_tiledL (kernelRun1_C c i arg1 harg1 arg2 harg2 arg3 harg3 arg4 harg4 hc0 hc1 x0 xs0).2.2.1 S1x1.size (by sl_kernel_rfl) y

def sout1_C_0 (hc0 : ¬cond1_0 i) (hc1 : cond1_1 i) (x0 : Vec F S5000x64 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 xs0).2.2.1)

-- What the body leaves in the block output, the one-entry output and the scratch, as one triple per control case.
def outs1_A (hc0 : cond1_0 i) (hc1 : ¬cond1_1 i) (x0 : Vec F S5000x64 .f32) : Vec F S5000x64 .f32 × Vec F S1x1 .f32 × Vec F S1x1 .f32 :=
  (out1_A_1 c i arg1 harg1 arg2 harg2 arg3 harg3 arg4 harg4 hc0 hc1 x0, out1_A_2 c i arg1 harg1 arg2 harg2 arg3 harg3 arg4 harg4 hc0 hc1 x0, sout1_A_0 c i arg1 harg1 arg2 harg2 arg3 harg3 arg4 harg4 hc0 hc1 x0)

def outs1_B (hc0 : ¬cond1_0 i) (hc1 : ¬cond1_1 i) (x0 : Vec F S5000x64 .f32) (xs0 : Vec F S1x1 .f32) : Vec F S5000x64 .f32 × Vec F S1x1 .f32 × Vec F S1x1 .f32 :=
  (out1_B_1 c i arg1 harg1 arg2 harg2 arg3 harg3 arg4 harg4 hc0 hc1 x0 xs0, out1_B_2 c i arg1 harg1 arg2 harg2 arg3 harg3 arg4 harg4 hc0 hc1 x0 xs0, sout1_B_0 c i arg1 harg1 arg2 harg2 arg3 harg3 arg4 harg4 hc0 hc1 x0 xs0)

def outs1_C (hc0 : ¬cond1_0 i) (hc1 : cond1_1 i) (x0 : Vec F S5000x64 .f32) (xs0 : Vec F S1x1 .f32) : Vec F S5000x64 .f32 × Vec F S1x1 .f32 × Vec F S1x1 .f32 :=
  (out1_C_1 c i arg1 harg1 arg2 harg2 arg3 harg3 arg4 harg4 hc0 hc1 x0 xs0, out1_C_2 c i arg1 harg1 arg2 harg2 arg3 harg3 arg4 harg4 hc0 hc1 x0 xs0, sout1_C_0 c i arg1 harg1 arg2 harg2 arg3 harg3 arg4 harg4 hc0 hc1 x0 xs0)

end

theorem hc0_zero (hn : 0 < cfg1.N) : cond1_0 (grid1.coords (⟨0, hn⟩ : Fin cfg1.N)) := (hcond1_0 ⟨0, hn⟩).mpr (Nat.zero_mod _)
theorem nhc1_zero (hn : 0 < cfg1.N) : ¬cond1_1 (grid1.coords (⟨0, hn⟩ : Fin cfg1.N)) := fun h => by
  have := (hcond1_1 ⟨0, hn⟩).mp h; (try dsimp only at this); omega
theorem nhc0_succ (n : ℕ) (hn : n + 1 < cfg1.N) : ¬cond1_0 (grid1.coords (⟨n + 1, hn⟩ : Fin cfg1.N)) := fun h => by
  have := (hcond1_0 ⟨n + 1, hn⟩).mp h; have hN : n + 1 < 20 := lt_of_lt_of_eq hn (show cfg1.N = 20 from N_1); (try dsimp only at this); omega

def outsAt1 (c : Dev nD) : (n : ℕ) → n < cfg1.N → Vec F S5000x64 .f32 × Vec F S1x1 .f32 × Vec F S1x1 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (hc0_zero hn) (nhc1_zero hn) (iblk1 V c 0 ⟨0, hn⟩)
  | n + 1, hn =>
    if h1 : (n + 1) % 20 = 19 then
      outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) ((hcond1_1 ⟨n + 1, hn⟩).mpr h1) (iblk1 V c 0 ⟨n + 1, hn⟩) (outsAt1 c n (Nat.lt_of_succ_lt hn)).2.2
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) (fun h => h1 ((hcond1_1 ⟨n + 1, hn⟩).mp h)) (iblk1 V c 0 ⟨n + 1, hn⟩) (outsAt1 c n (Nat.lt_of_succ_lt hn)).2.2

theorem outsAt1_A (c : Dev nD) (t : Fin cfg1.N) (h0 : t.val = 0) (hc0 : cond1_0 (grid1.coords t)) (hc1 : ¬cond1_1 (grid1.coords t)) :
    outsAt1 V c t.val t.isLt = outs1_A c (grid1.coords t) (ms1_0 t) (hs1_0 t) (ms1_1 t) (hs1_1 t) (ms1_2 t) (hs1_2 t) scM1_0 (Memref.isWhole_whole _) hc0 hc1 (iblk1 V c 0 t) := by
  obtain ⟨n, hn⟩ := t
  cases n with
  | zero => exact rfl
  | succ n => exact absurd h0 (Nat.succ_ne_zero n)

theorem outsAt1_B (c : Dev nD) (t : Fin cfg1.N) (h0 : t.val ≠ 0) (h1 : ¬t.val % 20 = 19) (hc0 : ¬cond1_0 (grid1.coords t)) (hc1 : ¬cond1_1 (grid1.coords t)) :
    outsAt1 V c t.val t.isLt = outs1_B c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2 := by
  obtain ⟨n, hn⟩ := t
  cases n with
  | zero => exact absurd rfl h0
  | succ n => exact (dif_neg h1).trans rfl

theorem outsAt1_C (c : Dev nD) (t : Fin cfg1.N) (h0 : t.val ≠ 0) (h1 : t.val % 20 = 19) (hc0 : ¬cond1_0 (grid1.coords t)) (hc1 : cond1_1 (grid1.coords t)) :
    outsAt1 V c t.val t.isLt = outs1_C c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2 := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(restL1 c iprop(owns (c : Thread nD τ) scM1_0 fullShare ((outsAt1 V c n hn).2.2) ∗ restR1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restL1 c iprop(owns (c : Thread nD τ) scM1_0 fullShare ((outsAt1 V c n hn).2.2) ∗ restR1 c) ∗ (∃ r, prngReg c r)) := rfl

theorem PhiS1_pos (c : Dev nD) (n : ℕ) (h : n ≤ cfg1.N) (hz : n ≠ 0) :
    PhiS1 V c n h = iprop(restL1 c iprop(owns (c : Thread nD τ) scM1_0 fullShare ((outsAt1 V c (n - 1) (by omega)).2.2) ∗ restR1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 2 t (idleAt1_2_A t hc0 hc1) (noFlush1_2_A t hc0 hc1)]
    rw [outsAt1_A V c t hz hc0 hc1]
    unfold outs1_A out1_A_1 sout1_A_0; (try dsimp only)
    rw [PhiS1_castSucc V c t, PhiS1_zero V c _ _ hz, PhiA1_eq]
    unfold restL1
    iintro ⟨⟨⟨HR0, HR1, HR2, HR3, HR4, HS0, HR⟩, Hg⟩, Ho, ⟨%d0, H0⟩, ⟨%d1, H1⟩, ⟨%d2, H2⟩⟩
    iapply ((kernelRun1_A c (grid1.coords t) _ _ _ _ _ _ _ _ hc0 hc1 (iblk1 V c 0 t)).2.2.2 _ Set.univ _)
    isplitl [H0]; · iexact H0
    isplitl [H1]; · iexists _; iexact H1
    isplitl [H2]; · iexact H2
    isplitl [HS0]; · iexact HS0
    iintro ⟨H0, ⟨%e1, H1⟩, H2, ⟨%es0, HS0⟩⟩
    isplitl [HR0 HR1 HR2 HR3 HR4 HS0 HR Hg]
    · isplitr [Hg]
      · isplitl [HR0]; · iexact HR0
        isplitl [HR1]; · iexact HR1
        isplitl [HR2]; · iexact HR2
        isplitl [HR3]; · iexact HR3
        isplitl [HR4]; · iexact HR4
        isplitl [HS0]
        · unfold owns; iexists _; isplitr
          swap; · iexact HS0
          ipureintro; exact View.read_writes_of_cover _ _ _ _ _ (scover1_A_0 c _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _ _ _ _)
    iexists _; iexact H2
  · have hc0 : ¬cond1_0 (grid1.coords t) := fun h => by have := (hcond1_0 t).mp h; omega
    by_cases h1 : t.val % 20 = 19
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2_C t hc0 hc1], after1_2]
      rw [outsAt1_C V c t hz h1 hc0 hc1]
      unfold outs1_C out1_C_1 out1_C_2 sout1_C_0; (try dsimp only)
      rw [PhiS1_castSucc V c t, PhiS1_pos V c _ _ hz]
      unfold restL1
      iintro ⟨⟨⟨HR0, HR1, HR2, HR3, HR4, HS0, HR⟩, Hg⟩, Ho, ⟨%d0, H0⟩, ⟨%d1, H1⟩, ⟨%d2, H2⟩⟩
      iapply ((kernelRun1_C c (grid1.coords t) _ _ _ _ _ _ _ _ hc0 hc1 (iblk1 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HR0 HR1 HR2 HR3 HR4 HS0 HR Hg]
      · isplitr [Hg]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_C_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _)
      unfold owns; iexists _; isplitr
      swap; · iexact H2
      ipureintro; exact View.read_writes_of_cover _ _ _ _ _ (cover1_C_2 c _ _ _ _ _ _ _ _ _ _ _ _ _)
    · have hc1 : ¬cond1_1 (grid1.coords t) := fun h => h1 ((hcond1_1 t).mp h)
      rw [Dat.leavesExact_idle (dat1 V c) 2 t (idleAt1_2_B t hc0 hc1) (noFlush1_2_B t hc0 hc1)]
      rw [outsAt1_B V c t hz h1 hc0 hc1]
      unfold outs1_B out1_B_1 sout1_B_0; (try dsimp only)
      rw [PhiS1_castSucc V c t, PhiS1_pos V c _ _ hz]
      unfold restL1
      iintro ⟨⟨⟨HR0, HR1, HR2, HR3, HR4, HS0, HR⟩, Hg⟩, Ho, ⟨%d0, H0⟩, ⟨%d1, H1⟩, ⟨%d2, H2⟩⟩
      iapply ((kernelRun1_B c (grid1.coords t) _ _ _ _ _ _ _ _ hc0 hc1 (iblk1 V c 0 t) _).2.2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HR0 HR1 HR2 HR3 HR4 HS0 HR Hg]
      · isplitr [Hg]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_B_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_B_1 c _ _ _ _ _ _ _ _ _ _ _ _ _)
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold restL1
  iintro ⟨⟨HR0, HR1, HR2, HR3, HR4, HS0, HR⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HS0]; · iexists _; iexact HS0
    iexact HR
  iexact Hg

theorem hout1 (c : Dev nD) : (dat1 V c).Φ (Fin.last cfg1.N) ⊢ (Pipeline.ΦA spec1 c : sProp 𝕄) :=
  Phi_out1 V c _ (by rw [Fin.val_last]; have : cfg1.N = 20 := N_1; omega)

end Cert.KernelIdeal.Hand

end
-- ==== Proof.R2.lean ====
import proofs.«420464_j10849087390119_2_alg».proof.Proof.Gen.KernelIdeal.Launch
import proofs.«420464_j10849087390119_2_alg».proof.Proof.Gen.KernelIdeal.Skeleton
import proofs.«420464_j10849087390119_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1x1 .f32 := (Memref.whole cc2_stg3_0 : Memref sig .tc .vmem S1x1 .f32).view
abbrev ms2_0 (t : Fin cfg2.N) : Memref sig .tc .vmem S512x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

abbrev scM2_0 : Memref sig .tc .vmem S1x1 .f32 := Memref.whole cc2_scratch0
abbrev VS2_0 : View sig .tc .vmem S1x1 .f32 := scM2_0.view

-- A scoped buffer held whole at some contents.
abbrev anyBuf2 (c : Dev nD) (r : Ref sig .tc) : sProp 𝕄 :=
  iprop(∃ f : Buf (Elt F) ((c : Thread nD τ).loc r), ((c : Thread nD τ).loc r) ↦{fullShare} f)

def rest2 (c : Dev nD) : sProp 𝕄 :=
  iprop(anyBuf2 c cc0_stg0_0
    ∗ anyBuf2 c cc0_stg0_1
    ∗ anyBuf2 c cc0_stg1_0
    ∗ anyBuf2 c cc0_stg2_0
    ∗ anyBuf2 c cc0_stg2_1
    ∗ anyBuf2 c cc1_stg0_0
    ∗ anyBuf2 c cc1_stg0_1
    ∗ anyBuf2 c cc1_stg1_0
    ∗ anyBuf2 c cc1_stg1_1
    ∗ anyBuf2 c cc1_stg2_0
    ∗ anyBuf2 c cc1_scratch0)

theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole]
  refine BI.equiv_iff.mp ⟨?_, ?_⟩
  · show (_ : sProp 𝕄) ⊢ _
    iintro ⟨⟨R1, R2, R3, R4, R5, R6, R7, R8, R9, R10, R11, HS⟩, Hg⟩
    isplitr [Hg]
    · isplitr [HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      · iexact HS
    · iexact Hg
  · show (_ : sProp 𝕄) ⊢ _
    iintro ⟨⟨⟨R1, R2, R3, R4, R5, R6, R7, R8, R9, R10, R11⟩, HS⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact HS
    · iexact Hg

section
variable (c : Dev nD) (i : grid2.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole)

set_option maxHeartbeats 1000000 in

noncomputable def kernelRun2_A (hc0 : cond2_0 i) (hc1 : ¬cond2_1 i)
    (x0 : Vec F S512x64 .f32) (x1 : Vec F S512x64 .f32) (x2 : Vec F S512x64 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨[], ?_, fun xi3 E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun2_B (hc0 : ¬cond2_0 i) (hc1 : ¬cond2_1 i)
    (x0 : Vec F S512x64 .f32) (x1 : Vec F S512x64 .f32) (x2 : Vec F S512x64 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨[], ?_, fun xi3 E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun2_C (hc0 : ¬cond2_0 i) (hc1 : cond2_1 i)
    (x0 : Vec F S512x64 .f32) (x1 : Vec F S512x64 .f32) (x2 : Vec F S512x64 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__bpr_kernel i arg1 harg1 arg2 harg2 arg3 harg3 arg4 harg4 arg5 harg5) K } := by
  refine ⟨?_, ?_, fun E K => ?run⟩
  case run =>
    simp only [cc2__bpr_kernel_eq_skeleton]; unfold cc2__bpr_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

def out2_A_3 (hc0 : cond2_0 i) (hc1 : ¬cond2_1 i) (x0 : Vec F S512x64 .f32) (x1 : Vec F S512x64 .f32) (x2 : Vec F S512x64 .f32) : Vec F S1x1 .f32 :=
  VO2_3.read (Elt F) (VO2_3.writes (Elt F) VO2_3.junk (kernelRun2_A c i arg1 harg1 arg2 harg2 arg3 harg3 arg4 harg4 arg5 harg5 hc0 hc1 x0 x1 x2).1)

theorem scover2_A_0 (hc0 : cond2_0 i) (hc1 : ¬cond2_1 i) (x0 : Vec F S512x64 .f32) (x1 : Vec F S512x64 .f32) (x2 : Vec F S512x64 .f32) (y : S1x1.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x1.size (by sl_kernel_rfl) y

def sout2_A_0 (hc0 : cond2_0 i) (hc1 : ¬cond2_1 i) (x0 : Vec F S512x64 .f32) (x1 : Vec F S512x64 .f32) (x2 : Vec F S512x64 .f32) : Vec F S1x1 .f32 :=
  VS2_0.read (Elt F) (VS2_0.writes (Elt F) VS2_0.junk (kernelRun2_A c i arg1 harg1 arg2 harg2 arg3 harg3 arg4 harg4 arg5 harg5 hc0 hc1 x0 x1 x2).2.1)

def out2_B_3 (hc0 : ¬cond2_0 i) (hc1 : ¬cond2_1 i) (x0 : Vec F S512x64 .f32) (x1 : Vec F S512x64 .f32) (x2 : Vec F S512x64 .f32) (xs0 : Vec F S1x1 .f32) : Vec F S1x1 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (hc0 : ¬cond2_0 i) (hc1 : ¬cond2_1 i) (x0 : Vec F S512x64 .f32) (x1 : Vec F S512x64 .f32) (x2 : Vec F S512x64 .f32) (xs0 : Vec F S1x1 .f32) (y : S1x1.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x1.size (by sl_kernel_rfl) y

def sout2_B_0 (hc0 : ¬cond2_0 i) (hc1 : ¬cond2_1 i) (x0 : Vec F S512x64 .f32) (x1 : Vec F S512x64 .f32) (x2 : Vec F S512x64 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 hc0 hc1 x0 x1 x2 xs0).2.1)

theorem cover2_C_3 (hc0 : ¬cond2_0 i) (hc1 : cond2_1 i) (x0 : Vec F S512x64 .f32) (x1 : Vec F S512x64 .f32) (x2 : Vec F S512x64 .f32) (xs0 : Vec F S1x1 .f32) (y : S1x1.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x1.size (by sl_kernel_rfl) y

def out2_C_3 (hc0 : ¬cond2_0 i) (hc1 : cond2_1 i) (x0 : Vec F S512x64 .f32) (x1 : Vec F S512x64 .f32) (x2 : Vec F S512x64 .f32) (xs0 : Vec F S1x1 .f32) : Vec F S1x1 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (hc0 : ¬cond2_0 i) (hc1 : cond2_1 i) (x0 : Vec F S512x64 .f32) (x1 : Vec F S512x64 .f32) (x2 : Vec F S512x64 .f32) (xs0 : Vec F S1x1 .f32) (y : S1x1.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x1.size (by sl_kernel_rfl) y

def sout2_C_0 (hc0 : ¬cond2_0 i) (hc1 : cond2_1 i) (x0 : Vec F S512x64 .f32) (x1 : Vec F S512x64 .f32) (x2 : Vec F S512x64 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 hc0 hc1 x0 x1 x2 xs0).2.1)

-- What the body leaves in the one-entry output and the scratch, as one pair per control case.
def outs2_A (hc0 : cond2_0 i) (hc1 : ¬cond2_1 i) (x0 : Vec F S512x64 .f32) (x1 : Vec F S512x64 .f32) (x2 : Vec F S512x64 .f32) : Vec F S1x1 .f32 × Vec F S1x1 .f32 :=
  (out2_A_3 c i arg1 harg1 arg2 harg2 arg3 harg3 arg4 harg4 arg5 harg5 hc0 hc1 x0 x1 x2, sout2_A_0 c i arg1 harg1 arg2 harg2 arg3 harg3 arg4 harg4 arg5 harg5 hc0 hc1 x0 x1 x2)

def outs2_B (hc0 : ¬cond2_0 i) (hc1 : ¬cond2_1 i) (x0 : Vec F S512x64 .f32) (x1 : Vec F S512x64 .f32) (x2 : Vec F S512x64 .f32) (xs0 : Vec F S1x1 .f32) : Vec F S1x1 .f32 × Vec F S1x1 .f32 :=
  (out2_B_3 c i arg1 harg1 arg2 harg2 arg3 harg3 arg4 harg4 arg5 harg5 hc0 hc1 x0 x1 x2 xs0, sout2_B_0 c i arg1 harg1 arg2 harg2 arg3 harg3 arg4 harg4 arg5 harg5 hc0 hc1 x0 x1 x2 xs0)

def outs2_C (hc0 : ¬cond2_0 i) (hc1 : cond2_1 i) (x0 : Vec F S512x64 .f32) (x1 : Vec F S512x64 .f32) (x2 : Vec F S512x64 .f32) (xs0 : Vec F S1x1 .f32) : Vec F S1x1 .f32 × Vec F S1x1 .f32 :=
  (out2_C_3 c i arg1 harg1 arg2 harg2 arg3 harg3 arg4 harg4 arg5 harg5 hc0 hc1 x0 x1 x2 xs0, sout2_C_0 c i arg1 harg1 arg2 harg2 arg3 harg3 arg4 harg4 arg5 harg5 hc0 hc1 x0 x1 x2 xs0)

end

def outsAt2 (c : Dev nD) : (n : ℕ) → n < cfg2.N → Vec F S1x1 .f32 × Vec F S1x1 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      False.elim (by have hN : n + 1 < 8 := lt_of_lt_of_eq hn (show cfg2.N = 8 from N_2); omega)
    else
      if h1 : (n + 1) % 8 = 7 then
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2
      else
        outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2

theorem outsAt2_A (c : Dev nD) (t : Fin cfg2.N) (h0 : t.val % 8 = 0) (h1 : ¬t.val % 8 = 7) :
    outsAt2 V c t.val t.isLt = outs2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (by exfalso; have hN : n + 1 < 8 := lt_of_lt_of_eq hn (show cfg2.N = 8 from N_2); (try dsimp only at h0); omega)

theorem outsAt2_B (c : Dev nD) (t : Fin cfg2.N) (h0 : ¬t.val % 8 = 0) (h1 : ¬t.val % 8 = 7) :
    outsAt2 V c t.val t.isLt = outs2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = outs2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
          unfold Dat.leavesExact; rw [liveAt2_0 t], after2_0]
  rw [show (dat2 V c).leavesExact 1 t = owns (c : Thread nD τ) (ms2_1 t) fullShare ((dat2 V c).after 1 t) from by
          unfold Dat.leavesExact; rw [liveAt2_1 t], after2_1]
  rw [show (dat2 V c).leavesExact 2 t = owns (c : Thread nD τ) (ms2_2 t) fullShare ((dat2 V c).after 2 t) from by
          unfold Dat.leavesExact; rw [liveAt2_2 t], after2_2]
  by_cases h0 : t.val % 8 = 0
  · have h1 : ¬t.val % 8 = 7 := by omega
    have hz : t.val = 0 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold outs2_A sout2_A_0; (try dsimp only)
    rw [PhiS2_castSucc V c t, PhiS2_zero V c _ _ hz, PhiA2_eq]
    iintro ⟨⟨⟨HR, HS0⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold outs2_C out2_C_3 sout2_C_0; (try dsimp only)
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 _ _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold outs2_B sout2_B_0; (try dsimp only)
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.KernelIdeal.Hand

end
-- ==== Proof.Run.lean ====
import proofs.«420464_j10849087390119_2_alg».proof.Proof.R0
import proofs.«420464_j10849087390119_2_alg».proof.Proof.R1
import proofs.«420464_j10849087390119_2_alg».proof.Proof.R2
import proofs.«420464_j10849087390119_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev W2 : Dev nD → Valuation τ sig (Elt F) := fun c => StableHlo.after hostOps1 (W1 m c)
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb

abbrev W8 : Dev nD → Valuation τ sig (Elt F) := fun c => StableHlo.after hostOps3 (W7 m c)

-- A buffer that no later host operation writes and that is no window's array of the two later regions is, at the end, what the first region left.
theorem W8_keep (c : Dev nD) (r : Ref sig .tc)
    (h : r ∉ hostOps3_W ∧ (∀ w, Pipeline.arrRef spec2 w ≠ r) ∧ r ∉ hostOps2_2_W ∧ r ∉ hostOps2_1_W ∧ r ∉ hostOps2_W
      ∧ (∀ w, Pipeline.arrRef spec1 w ≠ r) ∧ r ∉ hostOps1_W) :
    W8 m c (Proc.devRef .tc r) = W1 m c (Proc.devRef .tc r) :=
  (StableHlo.after_of_writes_sub hostOps3 _ hostOps3_writes h.1).trans <| (W7_of_ne m c r h.2.1).trans <|
  (StableHlo.after_of_writes_sub hostOps2_2 _ hostOps2_2_writes h.2.2.1).trans <|
  (StableHlo.after_of_writes_sub hostOps2_1 _ hostOps2_1_writes h.2.2.2.1).trans <|
  (StableHlo.after_of_writes_sub hostOps2 _ hostOps2_writes h.2.2.2.2.1).trans <| (W3_of_ne m c r h.2.2.2.2.2.1).trans <|
  StableHlo.after_of_writes_sub hostOps1 _ hostOps1_writes h.2.2.2.2.2.2

theorem W8_main_arg0 (c : Dev nD) : W8 m c (Proc.devRef .tc main_arg0) = m ((c : Thread nD τ).loc main_arg0) :=
  (W8_keep m c main_arg0 (by decide)).trans ((W1_arr m c 0).trans (((dat0 (V0 m) c).arrAt_in 0 rfl _).trans (A_eq0 (V0 m) c 0)))
theorem W8_main_arg1 (c : Dev nD) : W8 m c (Proc.devRef .tc main_arg1) = m ((c : Thread nD τ).loc main_arg1) :=
  (W8_keep m c main_arg1 (by decide)).trans ((W1_arr m c 1).trans (((dat0 (V0 m) c).arrAt_in 1 rfl _).trans (A_eq0 (V0 m) c 1)))
theorem W8_main_arg2 (c : Dev nD) : W8 m c (Proc.devRef .tc main_arg2) = m ((c : Thread nD τ).loc main_arg2) :=
  (W8_keep m c main_arg2 (by decide)).trans (W1_of_ne m c main_arg2 (by decide))
theorem W8_main_arg3 (c : Dev nD) : W8 m c (Proc.devRef .tc main_arg3) = m ((c : Thread nD τ).loc main_arg3) :=
  (W8_keep m c main_arg3 (by decide)).trans (W1_of_ne m c main_arg3 (by decide))
theorem W8_main_arg4 (c : Dev nD) : W8 m c (Proc.devRef .tc main_arg4) = m ((c : Thread nD τ).loc main_arg4) :=
  (W8_keep m c main_arg4 (by decide)).trans (W1_of_ne m c main_arg4 (by decide))
theorem W8_main_arg5 (c : Dev nD) : W8 m c (Proc.devRef .tc main_arg5) = m ((c : Thread nD τ).loc main_arg5) :=
  (W8_keep m c main_arg5 (by decide)).trans (W1_of_ne m c main_arg5 (by decide))
theorem W8_main_arg6 (c : Dev nD) : W8 m c (Proc.devRef .tc main_arg6) = m ((c : Thread nD τ).loc main_arg6) :=
  (W8_keep m c main_arg6 (by decide)).trans (W1_of_ne m c main_arg6 (by decide))
theorem W8_main_arg7 (c : Dev nD) : W8 m c (Proc.devRef .tc main_arg7) = m ((c : Thread nD τ).loc main_arg7) :=
  (W8_keep m c main_arg7 (by decide)).trans (W1_of_ne m c main_arg7 (by decide))

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V6 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m c) ∗ ∃ r, prngReg c r)

abbrev Vof (W : Dev nD → Valuation τ sig (Elt F)) : (c : Dev nD) → (b : Ref sig .tc) → Buf (Elt F) ((c : Thread nD τ).loc b) := fun c b => W c b

-- A kernel region as one step between two boundary contents: its windows' arrays go from the entry contents to what its grid points leave there, every other buffer is unchanged.
set_option backward.isDefEq.respectTransparency.types false in
def reg (p : Fin 3) (lf : Pipeline.LaunchFacts (nD := nD) (τ := τ) cfgs p) (Wi Wo : Dev nD → Valuation τ sig (Elt F))
    (hb : ∀ c, BodyObligation (pdats m p c) (defs₀ (F := F)) 𝒱₀ () Set.univ)
    (howed : ∀ c t, (pdats m p c).owed t = 0) (hrec : ∀ c t, (pdats m p c).recorded t = Set.univ) (hq : ∀ c w, (pdats m p c).q w = fullShare)
    (hA : ∀ c w, (pdats m p c).A w = Vof Wi c (Pipeline.arrRef (cfgs p).spec w))
    (harr : ∀ c w, Vof Wo c (Pipeline.arrRef (cfgs p).spec w) = (pdats m p c).arrAt w (cfgs p).N)
    (hne : ∀ c (b : Ref sig .tc), (∀ w, Pipeline.arrRef (cfgs p).spec w ≠ b) → Vof Wo c b = Vof Wi c b)
    (hΦi : ∀ c, (Pipeline.ΦA (cfgs p).spec c : sProp 𝕄) ⊢ (pdats m p c).Φ 0)
    (hΦo : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vof Wi c)
  hentry c := by
    rw [Pipeline.ownSems0_none]
    have hsplit := Pipeline.arrays_of_unscopedBufs (p := p) (pcfgs (F := F)) adm (pdats m) lf.win lf.arr_whole c
      ((pdats m p c).share_full (hq c)) (Vof Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    iintro ⟨Hp, -, Hr⟩
    iapply (hΦi c)
    unfold Pipeline.ΦA
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Vof Wi c) (Vof Wo c) ((pdats m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .region (reg m 0 launch0 (W0 m) (W1 m) (body_obligation0 (V0 m)) (fun _ _ => rfl) (fun _ _ => rfl) (fun _ _ => rfl) (A_eq0 (V0 m)) (W1_arr m) (W1_of_ne m) (hin0 (V0 m)) (hout0 (V0 m))),
    .host (hseg hostOps1 hostOps1_sub hostOps1_fresh (W1 m)),
    .region (reg m 1 launch1 (W2 m) (W3 m) (body_obligation1 (V2 m)) (fun _ _ => rfl) (fun _ _ => rfl) (fun _ _ => rfl) (A_eq1 (V2 m)) (W3_arr m) (W3_of_ne m) (hin1 (V2 m)) (hout1 (V2 m))),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg m 2 launch2 (W6 m) (W7 m) (body_obligation2 (V6 m)) (fun _ _ => rfl) (fun _ _ => rfl) (fun _ _ => rfl) (A_eq2 (V6 m)) (W7_arr m) (W7_of_ne m) (hin2 (V6 m)) (hout2 (V6 m))),
    .host (hseg hostOps3 hostOps3_sub hostOps3_fresh (W7 m)) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ (iprop(Tₙ m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.KernelIdeal.Hand

end
-- ==== Proof.RefTerm.lean ====
import proofs.«420464_j10849087390119_2_alg».proof.ReferenceIdeal
import Idealize.ShloMosaic.PureOps

noncomputable section

namespace Cert.ReferenceIdeal.Hand

open Cert.ReferenceIdeal Idealize.ShloMosaic

variable {F : FTy → Type} [FloatOps F] [Facts]
open Facts₀ Facts

def refXw (a0 : (⟨S100000x256, .f32⟩ : BufTy).Contents (Elt F))
    (a1 : (⟨S256x64, .f32⟩ : BufTy).Contents (Elt F)) :
    (⟨S100000x64, .f32⟩ : BufTy).Contents (Elt F) :=
  Host.dotGeneral dot_S100000x256_S256x64_S100000x64_1_0_0_1_n_n none a0 a1

def refWrapE (a3 : (⟨S3200000, .i32⟩ : BufTy).Contents (Elt F)) :
    (⟨S3200000x1, .i32⟩ : BufTy).Contents (Elt F) :=
  broadcastInDim S3200000x1 ![0] bcast_S3200000_S3200000x1_0
    (select
      (cmpi .slt a3 (broadcastInDim S3200000 ![] bcast_S_S3200000 (constantI S_ 32 0#32)))
      (addi a3 (broadcastInDim S3200000 ![] bcast_S_S3200000 (constantI S_ 32 100000#32)))
      a3)

def refH (xw : (⟨S100000x64, .f32⟩ : BufTy).Contents (Elt F))
    (a2 a3 : (⟨S3200000, .i32⟩ : BufTy).Contents (Elt F))
    (a4 : (⟨S3200000, .f32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 a2)
    (mulf
      (broadcastInDim S3200000x64 ![0, 1] bcast_S3200000x1_S3200000x64_0_1
        (broadcastInDim S3200000x1 ![0] bcast_S3200000_S3200000x1_0 a4))
      (Host.gather gather_S100000x64_S3200000x1_S3200000x64_1_0_n_n_0_1_164 xw (refWrapE (F := F) a3)))

def refEmb (h : (⟨S100000x64, .f32⟩ : BufTy).Contents (Elt F)) :
    (⟨S100000x64, .f32⟩ : BufTy).Contents (Elt F) :=
  mulf (Host.tanh h)
    (broadcastInDim S100000x64 ![0, 1] bcast_S100000x1_S100000x64_0_1
      (Host.rsqrt
        (maximumf
          (broadcastInDim S100000x1 ![0] bcast_S100000_S100000x1_0
            (Host.reduceAdd (mulf (Host.tanh h) (Host.tanh h)) (constant S_ .f32 0x00000000#32)
              reducesTo_S100000x64_S100000_d1 h_S_))
          (broadcastInDim S100000x1 ![] bcast_S_S100000x1 (constant S_ .f32 0x2B8CBCCC#32)))))

def refWrapB (idx : (⟨S4096, .i32⟩ : BufTy).Contents (Elt F)) :
    (⟨S4096x1, .i32⟩ : BufTy).Contents (Elt F) :=
  broadcastInDim S4096x1 ![0] bcast_S4096_S4096x1_0
    (select
      (cmpi .slt idx (broadcastInDim S4096 ![] bcast_S_S4096 (constantI S_ 32 0#32)))
      (addi idx (broadcastInDim S4096 ![] bcast_S_S4096 (constantI S_ 32 100000#32)))
      idx)

def refTake (e : (⟨S100000x64, .f32⟩ : BufTy).Contents (Elt F))
    (idx : (⟨S4096, .i32⟩ : BufTy).Contents (Elt F)) :
    (⟨S4096x64, .f32⟩ : BufTy).Contents (Elt F) :=
  Host.gather gather_S100000x64_S4096x1_S4096x64_1_0_n_n_0_1_164 e (refWrapB (F := F) idx)

def refBpr (o1 o2 on : (⟨S4096x64, .f32⟩ : BufTy).Contents (Elt F)) :
    (⟨S_, .f32⟩ : BufTy).Contents (Elt F) :=
  Host.reduceAdd
    (Host.negf
      (Host.negf
        (select
          (cmpf .une
            (subf
              (Host.negf
                (subf
                  (Host.reduceAdd (mulf o1 o2) (constant S_ .f32 0x00000000#32)
                    reducesTo_S4096x64_S4096_d1 h_S_)
                  (Host.reduceAdd (mulf o1 on) (constant S_ .f32 0x00000000#32)
                    reducesTo_S4096x64_S4096_d1 h_S_)))
              (broadcastInDim S4096 ![] bcast_S_S4096 (constant S_ .f32 0x00000000#32)))
            (subf
              (Host.negf
                (subf
                  (Host.reduceAdd (mulf o1 o2) (constant S_ .f32 0x00000000#32)
                    reducesTo_S4096x64_S4096_d1 h_S_)
                  (Host.reduceAdd (mulf o1 on) (constant S_ .f32 0x00000000#32)
                    reducesTo_S4096x64_S4096_d1 h_S_)))
              (broadcastInDim S4096 ![] bcast_S_S4096 (constant S_ .f32 0x00000000#32))))
          (addf
            (Host.negf
              (subf
                (Host.reduceAdd (mulf o1 o2) (constant S_ .f32 0x00000000#32)
                  reducesTo_S4096x64_S4096_d1 h_S_)
                (Host.reduceAdd (mulf o1 on) (constant S_ .f32 0x00000000#32)
                  reducesTo_S4096x64_S4096_d1 h_S_)))
            (broadcastInDim S4096 ![] bcast_S_S4096 (constant S_ .f32 0x00000000#32)))
          (addf
            (maximumf
              (Host.negf
                (subf
                  (Host.reduceAdd (mulf o1 o2) (constant S_ .f32 0x00000000#32)
                    reducesTo_S4096x64_S4096_d1 h_S_)
                  (Host.reduceAdd (mulf o1 on) (constant S_ .f32 0x00000000#32)
                    reducesTo_S4096x64_S4096_d1 h_S_)))
              (broadcastInDim S4096 ![] bcast_S_S4096 (constant S_ .f32 0x00000000#32)))
            (Host.log1p
              (Host.exp
                (Host.negf
                  (Host.absf
                    (subf
                      (Host.negf
                        (subf
                          (Host.reduceAdd (mulf o1 o2) (constant S_ .f32 0x00000000#32)
                            reducesTo_S4096x64_S4096_d1 h_S_)
                          (Host.reduceAdd (mulf o1 on) (constant S_ .f32 0x00000000#32)
                            reducesTo_S4096x64_S4096_d1 h_S_)))
                      (broadcastInDim S4096 ![] bcast_S_S4096
                        (constant S_ .f32 0x00000000#32)))))))))))
    (constant S_ .f32 0x00000000#32) reducesTo_S4096_S_d0 h_S_

def refSumsq (e : (⟨S100000x64, .f32⟩ : BufTy).Contents (Elt F)) :
    (⟨S_, .f32⟩ : BufTy).Contents (Elt F) :=
  Host.reduceAdd (mulf e e) (constant S_ .f32 0x00000000#32) reducesTo_S100000x64_S_d0_1 h_S_

def refLossOf (b s : (⟨S_, .f32⟩ : BufTy).Contents (Elt F)) :
    (⟨S_, .f32⟩ : BufTy).Contents (Elt F) :=
  Host.divf (addf b (mulf (constant S_ .f32 0x3851B717#32) s)) (constant S_ .f32 0x45800000#32)

def refLoss (a0 : (⟨S100000x256, .f32⟩ : BufTy).Contents (Elt F))
    (a1 : (⟨S256x64, .f32⟩ : BufTy).Contents (Elt F))
    (a2 a3 : (⟨S3200000, .i32⟩ : BufTy).Contents (Elt F))
    (a4 : (⟨S3200000, .f32⟩ : BufTy).Contents (Elt F))
    (a5 a6 a7 : (⟨S4096, .i32⟩ : BufTy).Contents (Elt F)) :
    (⟨S_, .f32⟩ : BufTy).Contents (Elt F) :=
  refLossOf (F := F)
    (refBpr (F := F)
      (refTake (F := F) (refEmb (F := F) (refH (F := F) (refXw (F := F) a0 a1) a2 a3 a4)) a5)
      (refTake (F := F) (refEmb (F := F) (refH (F := F) (refXw (F := F) a0 a1) a2 a3 a4)) a6)
      (refTake (F := F) (refEmb (F := F) (refH (F := F) (refXw (F := F) a0 a1) a2 a3 a4)) a7))
    (refSumsq (F := F) (refEmb (F := F) (refH (F := F) (refXw (F := F) a0 a1) a2 a3 a4)))

end Cert.ReferenceIdeal.Hand

end
-- ==== Proof.RefOps.lean ====
import proofs.«420464_j10849087390119_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- The contents of a buffer of shape `S` and element type `e`.
abbrev Ct (F : FTy → Type) (S : Shape) (e : EltTy) : Type := (⟨S, e⟩ : BufTy).Contents (Elt F)

abbrev ops : List (HloOp τ sig (Elt F)) :=
  [ StableHlo.binary main_arg0 main_arg1 main_v0 ((fun l r => Host.dotGeneral dot_S100000x256_S256x64_S100000x64_1_0_0_1_n_n none l r) : Ct F S100000x256 .f32 → Ct F S256x64 .f32 → Ct F S100000x64 .f32),
    StableHlo.unary main_arg4 main_v1 (broadcastInDim S3200000x1 ![0] bcast_S3200000_S3200000x1_0 : Ct F S3200000 .f32 → Ct F S3200000x1 .f32),
    StableHlo.nullary main_c (constantI S_ 32 0#32),
    StableHlo.unary main_c main_v2 (broadcastInDim S3200000 ![] bcast_S_S3200000 : Ct F S_ .i32 → Ct F S3200000 .i32),
    StableHlo.binary main_arg3 main_v2 main_v3 (cmpi .slt : Ct F S3200000 .i32 → Ct F S3200000 .i32 → Ct F S3200000 .i1),
    StableHlo.nullary main_c_0 (constantI S_ 32 100000#32),
    StableHlo.unary main_c_0 main_v4 (broadcastInDim S3200000 ![] bcast_S_S3200000 : Ct F S_ .i32 → Ct F S3200000 .i32),
    StableHlo.binary main_arg3 main_v4 main_v5 (addi : Ct F S3200000 .i32 → Ct F S3200000 .i32 → Ct F S3200000 .i32),
    StableHlo.ternary main_v3 main_v5 main_arg3 main_v6 (select : Ct F S3200000 .i1 → Ct F S3200000 .i32 → Ct F S3200000 .i32 → Ct F S3200000 .i32),
    StableHlo.unary main_v6 main_v7 (broadcastInDim S3200000x1 ![0] bcast_S3200000_S3200000x1_0 : Ct F S3200000 .i32 → Ct F S3200000x1 .i32),
    StableHlo.binary main_v0 main_v7 main_v8 ((fun x i => Host.gather gather_S100000x64_S3200000x1_S3200000x64_1_0_n_n_0_1_164 x i) : Ct F S100000x64 .f32 → Ct F S3200000x1 .i32 → Ct F S3200000x64 .f32),
    StableHlo.unary main_v1 main_v9 (broadcastInDim S3200000x64 ![0, 1] bcast_S3200000x1_S3200000x64_0_1 : Ct F S3200000x1 .f32 → Ct F S3200000x64 .f32),
    StableHlo.binary main_v9 main_v8 main_v10 (mulf : Ct F S3200000x64 .f32 → Ct F S3200000x64 .f32 → Ct F S3200000x64 .f32),
    StableHlo.nullary main_cst (constant S_ .f32 0x00000000#32),
    StableHlo.unary main_cst main_v11 (broadcastInDim S100000x64 ![] bcast_S_S100000x64 : Ct F S_ .f32 → Ct F S100000x64 .f32),
    StableHlo.unary main_arg2 main_v12 (broadcastInDim S3200000x1 ![0] bcast_S3200000_S3200000x1_0 : Ct F S3200000 .i32 → Ct F S3200000x1 .i32),
    StableHlo.ternary main_v11 main_v12 main_v10 main_v13 ((fun x i u => Host.scatterAdd scatter_S100000x64_S3200000x1_S3200000x64_1_0_0_1 x i u) : Ct F S100000x64 .f32 → Ct F S3200000x1 .i32 → Ct F S3200000x64 .f32 → Ct F S100000x64 .f32),
    StableHlo.unary main_v13 main_v14 (Host.tanh : Ct F S100000x64 .f32 → Ct F S100000x64 .f32),
    StableHlo.binary main_v14 main_v14 main_v15 (mulf : Ct F S100000x64 .f32 → Ct F S100000x64 .f32 → Ct F S100000x64 .f32),
    StableHlo.nullary main_cst_1 (constant S_ .f32 0x00000000#32),
    StableHlo.binary main_v15 main_cst_1 main_v16 ((fun x v => Host.reduceAdd x v reducesTo_S100000x64_S100000_d1 h_S_) : Ct F S100000x64 .f32 → Ct F S_ .f32 → Ct F S100000 .f32),
    StableHlo.unary main_v16 main_v17 (broadcastInDim S100000x1 ![0] bcast_S100000_S100000x1_0 : Ct F S100000 .f32 → Ct F S100000x1 .f32),
    StableHlo.nullary main_cst_2 (constant S_ .f32 0x2B8CBCCC#32),
    StableHlo.unary main_cst_2 main_v18 (broadcastInDim S100000x1 ![] bcast_S_S100000x1 : Ct F S_ .f32 → Ct F S100000x1 .f32),
    StableHlo.binary main_v17 main_v18 main_v19 (maximumf : Ct F S100000x1 .f32 → Ct F S100000x1 .f32 → Ct F S100000x1 .f32),
    StableHlo.unary main_v19 main_v20 (Host.rsqrt : Ct F S100000x1 .f32 → Ct F S100000x1 .f32),
    StableHlo.unary main_v20 main_v21 (broadcastInDim S100000x64 ![0, 1] bcast_S100000x1_S100000x64_0_1 : Ct F S100000x1 .f32 → Ct F S100000x64 .f32),
    StableHlo.binary main_v14 main_v21 main_v22 (mulf : Ct F S100000x64 .f32 → Ct F S100000x64 .f32 → Ct F S100000x64 .f32),
    StableHlo.nullary main_c_3 (constantI S_ 32 0#32),
    StableHlo.unary main_c_3 main_v23 (broadcastInDim S4096 ![] bcast_S_S4096 : Ct F S_ .i32 → Ct F S4096 .i32),
    StableHlo.binary main_arg5 main_v23 main_v24 (cmpi .slt : Ct F S4096 .i32 → Ct F S4096 .i32 → Ct F S4096 .i1),
    StableHlo.nullary main_c_4 (constantI S_ 32 100000#32),
    StableHlo.unary main_c_4 main_v25 (broadcastInDim S4096 ![] bcast_S_S4096 : Ct F S_ .i32 → Ct F S4096 .i32),
    StableHlo.binary main_arg5 main_v25 main_v26 (addi : Ct F S4096 .i32 → Ct F S4096 .i32 → Ct F S4096 .i32),
    StableHlo.ternary main_v24 main_v26 main_arg5 main_v27 (select : Ct F S4096 .i1 → Ct F S4096 .i32 → Ct F S4096 .i32 → Ct F S4096 .i32),
    StableHlo.unary main_v27 main_v28 (broadcastInDim S4096x1 ![0] bcast_S4096_S4096x1_0 : Ct F S4096 .i32 → Ct F S4096x1 .i32),
    StableHlo.binary main_v22 main_v28 main_v29 ((fun x i => Host.gather gather_S100000x64_S4096x1_S4096x64_1_0_n_n_0_1_164 x i) : Ct F S100000x64 .f32 → Ct F S4096x1 .i32 → Ct F S4096x64 .f32),
    StableHlo.nullary main_c_5 (constantI S_ 32 0#32),
    StableHlo.unary main_c_5 main_v30 (broadcastInDim S4096 ![] bcast_S_S4096 : Ct F S_ .i32 → Ct F S4096 .i32),
    StableHlo.binary main_arg6 main_v30 main_v31 (cmpi .slt : Ct F S4096 .i32 → Ct F S4096 .i32 → Ct F S4096 .i1),
    StableHlo.nullary main_c_6 (constantI S_ 32 100000#32),
    StableHlo.unary main_c_6 main_v32 (broadcastInDim S4096 ![] bcast_S_S4096 : Ct F S_ .i32 → Ct F S4096 .i32),
    StableHlo.binary main_arg6 main_v32 main_v33 (addi : Ct F S4096 .i32 → Ct F S4096 .i32 → Ct F S4096 .i32),
    StableHlo.ternary main_v31 main_v33 main_arg6 main_v34 (select : Ct F S4096 .i1 → Ct F S4096 .i32 → Ct F S4096 .i32 → Ct F S4096 .i32),
    StableHlo.unary main_v34 main_v35 (broadcastInDim S4096x1 ![0] bcast_S4096_S4096x1_0 : Ct F S4096 .i32 → Ct F S4096x1 .i32),
    StableHlo.binary main_v22 main_v35 main_v36 ((fun x i => Host.gather gather_S100000x64_S4096x1_S4096x64_1_0_n_n_0_1_164 x i) : Ct F S100000x64 .f32 → Ct F S4096x1 .i32 → Ct F S4096x64 .f32),
    StableHlo.nullary main_c_7 (constantI S_ 32 0#32),
    StableHlo.unary main_c_7 main_v37 (broadcastInDim S4096 ![] bcast_S_S4096 : Ct F S_ .i32 → Ct F S4096 .i32),
    StableHlo.binary main_arg7 main_v37 main_v38 (cmpi .slt : Ct F S4096 .i32 → Ct F S4096 .i32 → Ct F S4096 .i1),
    StableHlo.nullary main_c_8 (constantI S_ 32 100000#32),
    StableHlo.unary main_c_8 main_v39 (broadcastInDim S4096 ![] bcast_S_S4096 : Ct F S_ .i32 → Ct F S4096 .i32),
    StableHlo.binary main_arg7 main_v39 main_v40 (addi : Ct F S4096 .i32 → Ct F S4096 .i32 → Ct F S4096 .i32),
    StableHlo.ternary main_v38 main_v40 main_arg7 main_v41 (select : Ct F S4096 .i1 → Ct F S4096 .i32 → Ct F S4096 .i32 → Ct F S4096 .i32),
    StableHlo.unary main_v41 main_v42 (broadcastInDim S4096x1 ![0] bcast_S4096_S4096x1_0 : Ct F S4096 .i32 → Ct F S4096x1 .i32),
    StableHlo.binary main_v22 main_v42 main_v43 ((fun x i => Host.gather gather_S100000x64_S4096x1_S4096x64_1_0_n_n_0_1_164 x i) : Ct F S100000x64 .f32 → Ct F S4096x1 .i32 → Ct F S4096x64 .f32),
    StableHlo.binary main_v29 main_v36 main_v44 (mulf : Ct F S4096x64 .f32 → Ct F S4096x64 .f32 → Ct F S4096x64 .f32),
    StableHlo.nullary main_cst_9 (constant S_ .f32 0x00000000#32),
    StableHlo.binary main_v44 main_cst_9 main_v45 ((fun x v => Host.reduceAdd x v reducesTo_S4096x64_S4096_d1 h_S_) : Ct F S4096x64 .f32 → Ct F S_ .f32 → Ct F S4096 .f32),
    StableHlo.binary main_v29 main_v43 main_v46 (mulf : Ct F S4096x64 .f32 → Ct F S4096x64 .f32 → Ct F S4096x64 .f32),
    StableHlo.nullary main_cst_10 (constant S_ .f32 0x00000000#32),
    StableHlo.binary main_v46 main_cst_10 main_v47 ((fun x v => Host.reduceAdd x v reducesTo_S4096x64_S4096_d1 h_S_) : Ct F S4096x64 .f32 → Ct F S_ .f32 → Ct F S4096 .f32),
    StableHlo.binary main_v45 main_v47 main_v48 (subf : Ct F S4096 .f32 → Ct F S4096 .f32 → Ct F S4096 .f32),
    StableHlo.TRef.unary (.of main_v48) main_call0.v0 Host.negf,
    StableHlo.TRef.nullary main_call0.call0.cst (constant S_ .f32 0x00000000#32),
    StableHlo.TRef.unary main_call0.call0.cst main_call0.call0.v0 (broadcastInDim S4096 ![] bcast_S_S4096),
    StableHlo.TRef.binary main_call0.v0 main_call0.call0.v0 main_call0.call0.v1 maximumf,
    StableHlo.TRef.unary main_call0.call0.cst main_call0.call0.v2 (broadcastInDim S4096 ![] bcast_S_S4096),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S4096 ![] bcast_S_S4096),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.unary main_v49 main_v50 (Host.negf : Ct F S4096 .f32 → Ct F S4096 .f32),
    StableHlo.nullary main_cst_11 (constant S_ .f32 0x00000000#32),
    StableHlo.binary main_v50 main_cst_11 main_v51 ((fun x v => Host.reduceAdd x v reducesTo_S4096_S_d0 h_S_) : Ct F S4096 .f32 → Ct F S_ .f32 → Ct F S_ .f32),
    StableHlo.binary main_v22 main_v22 main_v52 (mulf : Ct F S100000x64 .f32 → Ct F S100000x64 .f32 → Ct F S100000x64 .f32),
    StableHlo.nullary main_cst_12 (constant S_ .f32 0x00000000#32),
    StableHlo.binary main_v52 main_cst_12 main_v53 ((fun x v => Host.reduceAdd x v reducesTo_S100000x64_S_d0_1 h_S_) : Ct F S100000x64 .f32 → Ct F S_ .f32 → Ct F S_ .f32),
    StableHlo.nullary main_cst_13 (constant S_ .f32 0x3851B717#32),
    StableHlo.binary main_cst_13 main_v53 main_v54 (mulf : Ct F S_ .f32 → Ct F S_ .f32 → Ct F S_ .f32),
    StableHlo.binary main_v51 main_v54 main_v55 (addf : Ct F S_ .f32 → Ct F S_ .f32 → Ct F S_ .f32),
    StableHlo.nullary main_cst_14 (constant S_ .f32 0x45800000#32),
    StableHlo.binary main_v55 main_cst_14 main_v56 (Host.divf : Ct F S_ .f32 → Ct F S_ .f32 → Ct F S_ .f32) ]

set_option maxRecDepth 4096 in
set_option maxHeartbeats 4000000 in

theorem main_eq (c : Dev nD) : main (F := F) c = seq ops := by
  simp only [main, main_part0, main_part1, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    binary_bufs_sub .., nullary_bufs_sub .., binary_bufs_sub .., unary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., binary_bufs_sub .., binary_bufs_sub .., nullary_bufs_sub ..,
    binary_bufs_sub .., binary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    unary_bufs_sub .., nullary_bufs_sub .., binary_bufs_sub .., binary_bufs_sub .., nullary_bufs_sub .., binary_bufs_sub ..,
    nullary_bufs_sub .., binary_bufs_sub .., binary_bufs_sub .., nullary_bufs_sub .., binary_bufs_sub ..⟩

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRun.lean ====
import proofs.«420464_j10849087390119_2_alg».proof.Proof.RefTerm
import proofs.«420464_j10849087390119_2_alg».proof.Proof.RefOps
import proofs.«420464_j10849087390119_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]

set_option maxRecDepth 8192 in
set_option maxHeartbeats 4000000 in

theorem out_eq (V : Valuation τ sig (Elt F)) :
    after ops V (main_v56 : DevRef τ sig)
      = refLoss (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v56) = refLoss (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v56).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_after m ρ)

end Cert.ReferenceIdeal.Hand

end
-- ==== Proof.LibGatherRows.lean ====
import Idealize.ShloMosaic.PureOps
import Idealize.ShloMosaic.Lib.ValueIdx

noncomputable section

namespace Idealize.ShloMosaic.RowGather

open Idealize.ShloMosaic Idealize.ShloMosaic.ValueIdx

variable {α : Type}

abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

def clampRow (N : Nat) (hN : 0 < N) {w : Nat} (i : BitVec w) : Fin N :=
  ⟨min i.toInt.toNat (N - 1), by omega⟩

def wrap (i : BitVec 32) : BitVec 32 :=
  Scalar.select (IntOp.cmpi .slt i 0#32) (IntOp.addi i 100000#32) i

private theorem toInt_zero32 : (0#32 : BitVec 32).toInt = 0 := by decide
private theorem toInt_n32 : (100000#32 : BitVec 32).toInt = 100000 := by decide
private theorem toInt_m32 : (99999#32 : BitVec 32).toInt = 99999 := by decide

private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

end Idealize.ShloMosaic.RowGather

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN256 : Shape := ⟨2, ![100000, 256]⟩
abbrev S256x64 : Shape := ⟨2, ![256, 64]⟩
abbrev SN64 : Shape := ⟨2, ![100000, 64]⟩
abbrev SB64 : Shape := ⟨2, ![4096, 64]⟩

def eps : EReal := Ideal.ofBits .f32 0x2B8CBCCC#32

def decay : EReal := Ideal.ofBits .f32 0x3851B717#32

def batch : EReal := Ideal.ofBits .f32 0x45800000#32

def xw (a : SN256.Idx → EReal) (w : S256x64.Idx → EReal) (r : Fin 100000) (k : Fin 64) : EReal :=
  ∑ j : Fin 256, a (ix2 r j) * w (ix2 j k)

def embRow (x : Fin 64 → EReal) (k : Fin 64) : EReal :=
  Ideal.tanh (x k) * Ideal.rsqrt (max (∑ j : Fin 64, Ideal.tanh (x j) * Ideal.tanh (x j)) eps)

def emb (h : SN64.Idx → EReal) (r : Fin 100000) (k : Fin 64) : EReal :=
  embRow (fun j => h (ix2 r j)) k

def sumsq (h : SN64.Idx → EReal) : EReal :=
  ∑ r : Fin 100000, ∑ k : Fin 64, emb h r k * emb h r k

def softplus (x : EReal) : EReal :=
  max x 0 + Ideal.log1p (Ideal.exp (-(max x (-x))))

def bprTerm (a b n : Fin 64 → EReal) : EReal :=
  softplus (-((∑ k : Fin 64, a k * b k) - (∑ k : Fin 64, a k * n k)))

def bpr (o1 o2 on : SB64.Idx → EReal) : EReal :=
  ∑ r : Fin 4096, bprTerm (fun k => o1 (ix2 r k)) (fun k => o2 (ix2 r k)) (fun k => on (ix2 r k))

def loss (bprSum sumsqV : EReal) : EReal :=
  Ideal.div (bprSum + decay * sumsqV) batch

end Cert.Spec

end
-- ==== Proof.HostK.lean ====
import proofs.«420464_j10849087390119_2_alg».proof.Proof.Gen.KernelIdeal.Launch
import proofs.«420464_j10849087390119_2_alg».proof.Proof.LibGatherRows
import proofs.«420464_j10849087390119_2_alg».proof.Proof.Spec
import Idealize.ShloMosaic.Lib.StableHlo.Run
import Idealize.ShloMosaic.Lib.ValueIdx
import Idealize.ShloMosaic.PureOps.Reduce

noncomputable section

namespace Cert.KernelIdeal.Hand

open Cert.KernelIdeal Cert.KernelIdeal.Gen Idealize.ShloMosaic Idealize.ShloMosaic.TcCoe

variable {F : FTy → Type} [FloatOps F]

def wrapE (a3 : IVec S3200000 32) : IVec S3200000x1 32 :=
  broadcastInDim S3200000x1 ![0] bcast_S3200000_S3200000x1_0
    (select (cmpi .slt a3 (broadcastInDim S3200000 ![] bcast_S_S3200000 (constantI S_ 32 0#32)))
      (addi a3 (broadcastInDim S3200000 ![] bcast_S_S3200000 (constantI S_ 32 100000#32))) a3)

def chainK (xw : Vec F S100000x64 .f32) (a2 a3 : IVec S3200000 32) (a4 : Vec F S3200000 .f32) :
    Vec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 a2)
    (mulf
      (broadcastInDim S3200000x64 ![0, 1] bcast_S3200000x1_S3200000x64_0_1
        (broadcastInDim S3200000x1 ![0] bcast_S3200000_S3200000x1_0 a4))
      (Host.gather gather_S100000x64_S3200000x1_S3200000x64_1_0_n_n_0_1_164 xw (wrapE a3)))

def wrapB (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 100000#32))) idx)

def gatherK (e : Vec F S100000x64 .f32) (idx : IVec S4096 32) : Vec F S4096x64 .f32 :=
  Host.gather gather_S100000x64_S4096x1_S4096x64_1_0_n_n_0_1_164 e (wrapB idx)

-- The range test 0 ≤ i ≤ 99999 on the wrapped row numbers.
def maskB (idx : IVec S4096 32) :=
  andi
    (cmpi .sge (wrapB idx) (broadcastInDim S4096x1 ![] bcast_S_S4096x1 (constantI S_ 32 0#32)))
    (cmpi .sle (wrapB idx)
      (broadcastInDim S4096x1 ![0, 1] bcast_S1x1_S4096x1_0_1
        (broadcastInDim S1x1 ![1] bcast_S1_S1x1_1 (constantI S1 32 99999#32))))

def takeK (e : Vec F S100000x64 .f32) (idx : IVec S4096 32) : Vec F S4096x64 .f32 :=
  select
    (broadcastInDim S4096x64 ![0] bcast_S4096_S4096x64_0
      (Host.reduce IntOp.andi
        (maskB idx)
        (constantI S_ 1 1#1) reducesTo_S4096x1_S4096_d1 h_S_))
    (gatherK e idx)
    (broadcastInDim S4096x64 ![] bcast_S_S4096x64 (constant S_ .f32 0x7FC00000#32))

def lossK (b s : Vec F S1x1 .f32) : Vec F S_ .f32 :=
  Host.divf
    (addf (fun i => shapeCast S_ b shapeCasts_S1x1_S_ i)
      (mulf (constant S_ .f32 0x3851B717#32) (fun i => shapeCast S_ s shapeCasts_S1x1_S_ i)))
    (constant S_ .f32 0x45800000#32)

theorem after_hostOps1 (W : Valuation τ sig (Elt F)) :
    StableHlo.after hostOps1 W (Proc.devRef .tc main_v13)
      = chainK (W (Proc.devRef .tc main_v0)) (W (Proc.devRef .tc main_arg2))
          (W (Proc.devRef .tc main_arg3)) (W (Proc.devRef .tc main_arg4)) := by
  after_results_simp
  rfl

theorem after_hostOps2 (W : Valuation τ sig (Elt F)) :
    StableHlo.after hostOps2 W (Proc.devRef .tc main_v15)
      = takeK (W (Proc.devRef .tc main_v14_0)) (W (Proc.devRef .tc main_arg5)) := by
  after_results_simp
  rfl

theorem after_hostOps2_1 (W : Valuation τ sig (Elt F)) :
    StableHlo.after hostOps2_1 W (Proc.devRef .tc main_v16)
      = takeK (W (Proc.devRef .tc main_v14_0)) (W (Proc.devRef .tc main_arg6)) := by
  after_results_simp
  rfl

theorem after_hostOps2_2 (W : Valuation τ sig (Elt F)) :
    StableHlo.after hostOps2_2 W (Proc.devRef .tc main_v17)
      = takeK (W (Proc.devRef .tc main_v14_0)) (W (Proc.devRef .tc main_arg7)) := by
  after_results_simp
  rfl

theorem after_hostOps3 (W : Valuation τ sig (Elt F)) :
    StableHlo.after hostOps3 W (Proc.devRef .tc main_v23)
      = lossK (W (Proc.devRef .tc main_v18)) (W (Proc.devRef .tc main_v14_1)) := by
  after_results
  rfl

private theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    show l.foldl (fun r n => IntOp.andi r (f n)) (IntOp.andi 1#1 (f a)) = 1#1
    rw [hf a, h11]
    exact foldl_andi_ones f hf l

private theorem reduce_andi_ones {s t u : Shape} {axes : List (Fin s.rank)} (x : s.Idx → BitVec 1)
    (hx : ∀ i, x i = 1#1) (init : u.Idx → BitVec 1) (hinit : ∀ k, init k = 1#1) (h : s.ReducesTo axes t)
    (hu : 0 < u.numel) (j : t.Idx) : Host.reduce IntOp.andi x init h hu j = 1#1 := by
  rw [Host.reduce_eq_foldl, hinit]
  exact foldl_andi_ones x hx _

private theorem bcast_col {α : Type} (v : S4096.Idx → α) (j : Fin 4096) (z : Fin 1) :
    broadcastInDim S4096x1 ![0] bcast_S4096_S4096x1_0 v (ValueIdx.ix2 j z) = v (ValueIdx.ix1 j) := by
  unfold broadcastInDim
  congr 1
  funext a
  match a with
  | ⟨0, _⟩ => rfl

theorem wrapB_apply (idx : IVec S4096 32) (j : Fin 4096) (z : Fin 1) :
    wrapB idx (ValueIdx.ix2 j z) = RowGather.wrap (idx (ValueIdx.ix1 j)) :=
  (bcast_col _ j z).trans rfl

private theorem mask_one (idx : IVec S4096 32)
    (hr : ∀ j : Fin 4096, -100000 ≤ (idx (ValueIdx.ix1 j)).toInt ∧ (idx (ValueIdx.ix1 j)).toInt < 100000)
    (i : S4096x1.Idx) : maskB idx i = 1#1 := by
  obtain ⟨j, z, rfl⟩ : ∃ (j : Fin 4096) (z : Fin 1), i = ValueIdx.ix2 j z := ⟨i 0, i 1, ValueIdx.eq_ix2 i⟩
  show IntOp.andi (IntOp.cmpi .sge (wrapB idx (ValueIdx.ix2 j z)) 0#32)
    (IntOp.cmpi .sle (wrapB idx (ValueIdx.ix2 j z)) 99999#32) = 1#1
  rw [wrapB_apply]
  obtain ⟨h1, h2⟩ := RowGather.wrap_inb _ (hr j).1 (hr j).2
  rw [h1, h2]
  decide

theorem takeK_eq_gatherK (e : Vec F S100000x64 .f32) (idx : IVec S4096 32)
    (hr : ∀ j : Fin 4096, -100000 ≤ (idx (ValueIdx.ix1 j)).toInt ∧ (idx (ValueIdx.ix1 j)).toInt < 100000) :
    takeK (F := F) e idx = gatherK e idx := by
  funext i
  unfold takeK
  rw [ValueIdx.select_apply]
  have hm : broadcastInDim S4096x64 ![0] bcast_S4096_S4096x64_0
      (Host.reduce IntOp.andi
        (maskB idx)
        (constantI S_ 1 1#1) reducesTo_S4096x1_S4096_d1 h_S_) i = 1#1 :=
    reduce_andi_ones _ (mask_one idx hr) _ (fun _ => rfl) _ _ _
  rw [hm]
  exact ValueIdx.select_one _ _

private theorem idx11 (k : S1x1.Idx) : k = ValueIdx.ix2 (0 : Fin 1) (0 : Fin 1) := by
  funext a
  match a with
  | ⟨0, _⟩ => exact Fin.ext (Nat.lt_one_iff.mp (k ⟨0, _⟩).isLt)
  | ⟨1, _⟩ => exact Fin.ext (Nat.lt_one_iff.mp (k ⟨1, _⟩).isLt)

theorem lossK_eq (b s : Vec Ideal S1x1 .f32) :
    lossK (F := Ideal) b s
      = fun _ => Cert.Spec.loss (b (ValueIdx.ix2 (0 : Fin 1) (0 : Fin 1))) (s (ValueIdx.ix2 (0 : Fin 1) (0 : Fin 1))) := by
  funext i
  have e1 : shapeCast S_ b shapeCasts_S1x1_S_ i = b (ValueIdx.ix2 (0 : Fin 1) (0 : Fin 1)) := congrArg b (idx11 _)
  have e2 : shapeCast S_ s shapeCasts_S1x1_S_ i = s (ValueIdx.ix2 (0 : Fin 1) (0 : Fin 1)) := congrArg s (idx11 _)
  show Ideal.div (shapeCast S_ b shapeCasts_S1x1_S_ i
      + Ideal.ofBits .f32 0x3851B717#32 * shapeCast S_ s shapeCasts_S1x1_S_ i) (Ideal.ofBits .f32 0x45800000#32) = _
  rw [e1, e2]
  rfl

end Cert.KernelIdeal.Hand

end
-- ==== Proof.KFold.lean ====
import proofs.«420464_j10849087390119_2_alg».proof.Proof.Run
import proofs.«420464_j10849087390119_2_alg».proof.Proof.HostK

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem W1_v0 (c : Dev nD) : W1 m c (Proc.devRef .tc main_v0) = (dat0 (V0 m) c).arrAt 2 cfg0.N :=
  W1_arr m c 2
theorem W1_arg2 (c : Dev nD) : W1 m c (Proc.devRef .tc main_arg2) = m ((c : Thread nD τ).loc main_arg2) := W1_of_ne m c main_arg2 (by decide)
theorem W1_arg3 (c : Dev nD) : W1 m c (Proc.devRef .tc main_arg3) = m ((c : Thread nD τ).loc main_arg3) := W1_of_ne m c main_arg3 (by decide)
theorem W1_arg4 (c : Dev nD) : W1 m c (Proc.devRef .tc main_arg4) = m ((c : Thread nD τ).loc main_arg4) := W1_of_ne m c main_arg4 (by decide)

theorem W2_v13 (c : Dev nD) : W2 m c (Proc.devRef .tc main_v13)
    = chainK (W1 m c (Proc.devRef .tc main_v0)) (m ((c : Thread nD τ).loc main_arg2)) (m ((c : Thread nD τ).loc main_arg3)) (m ((c : Thread nD τ).loc main_arg4)) := by
  rw [← W1_arg2 m c, ← W1_arg3 m c, ← W1_arg4 m c]
  exact after_hostOps1 (W1 m c)

theorem W3_v14_0 (c : Dev nD) : W3 m c (Proc.devRef .tc main_v14_0) = (dat1 (V2 m) c).arrAt 1 cfg1.N := W3_arr m c 1
theorem W3_v14_1 (c : Dev nD) : W3 m c (Proc.devRef .tc main_v14_1) = (dat1 (V2 m) c).arrAt 2 cfg1.N := W3_arr m c 2

theorem W3_of_arg (c : Dev nD) (r : Ref sig .tc) (h3 : ∀ w, Pipeline.arrRef spec1 w ≠ r) (h1 : r ∉ hostOps1_W)
    (h0 : ∀ w, Pipeline.arrRef spec0 w ≠ r) : W3 m c (Proc.devRef .tc r) = m ((c : Thread nD τ).loc r) :=
  calc W3 m c (Proc.devRef .tc r)
    _ = W2 m c (Proc.devRef .tc r) := W3_of_ne m c r h3
    _ = W1 m c (Proc.devRef .tc r) := StableHlo.after_of_writes_sub hostOps1 _ hostOps1_writes (r := r) h1
    _ = W0 m c (Proc.devRef .tc r) := W1_of_ne m c r h0
    _ = m ((c : Thread nD τ).loc r) := rfl
theorem W3_arg5 (c : Dev nD) : W3 m c (Proc.devRef .tc main_arg5) = m ((c : Thread nD τ).loc main_arg5) := W3_of_arg m c main_arg5 (by decide) (by decide) (by decide)
theorem W3_arg6 (c : Dev nD) : W3 m c (Proc.devRef .tc main_arg6) = m ((c : Thread nD τ).loc main_arg6) := W3_of_arg m c main_arg6 (by decide) (by decide) (by decide)
theorem W3_arg7 (c : Dev nD) : W3 m c (Proc.devRef .tc main_arg7) = m ((c : Thread nD τ).loc main_arg7) := W3_of_arg m c main_arg7 (by decide) (by decide) (by decide)

theorem W4_of (c : Dev nD) (r : Ref sig .tc) (h : r ∉ hostOps2_W) : W4 m c (Proc.devRef .tc r) = W3 m c (Proc.devRef .tc r) :=
  StableHlo.after_of_writes_sub hostOps2 _ hostOps2_writes (r := r) h
theorem W5_of (c : Dev nD) (r : Ref sig .tc) (h : r ∉ hostOps2_1_W) : W5 m c (Proc.devRef .tc r) = W4 m c (Proc.devRef .tc r) :=
  StableHlo.after_of_writes_sub hostOps2_1 _ hostOps2_1_writes (r := r) h
theorem W6_of (c : Dev nD) (r : Ref sig .tc) (h : r ∉ hostOps2_2_W) : W6 m c (Proc.devRef .tc r) = W5 m c (Proc.devRef .tc r) :=
  StableHlo.after_of_writes_sub hostOps2_2 _ hostOps2_2_writes (r := r) h

theorem W6_v15 (c : Dev nD) : W6 m c (Proc.devRef .tc main_v15)
    = takeK (W3 m c (Proc.devRef .tc main_v14_0)) (m ((c : Thread nD τ).loc main_arg5)) := by
  rw [W6_of m c main_v15 (by decide), W5_of m c main_v15 (by decide), ← W3_arg5 m c]
  exact after_hostOps2 (W3 m c)
theorem W6_v16 (c : Dev nD) : W6 m c (Proc.devRef .tc main_v16)
    = takeK (W3 m c (Proc.devRef .tc main_v14_0)) (m ((c : Thread nD τ).loc main_arg6)) := by
  rw [W6_of m c main_v16 (by decide), ← W3_arg6 m c, ← W4_of m c main_arg6 (by decide), ← W4_of m c main_v14_0 (by decide)]
  exact after_hostOps2_1 (W4 m c)
theorem W6_v17 (c : Dev nD) : W6 m c (Proc.devRef .tc main_v17)
    = takeK (W3 m c (Proc.devRef .tc main_v14_0)) (m ((c : Thread nD τ).loc main_arg7)) := by
  rw [← W3_arg7 m c, ← W4_of m c main_arg7 (by decide), ← W5_of m c main_arg7 (by decide),
    ← W4_of m c main_v14_0 (by decide), ← W5_of m c main_v14_0 (by decide)]
  exact after_hostOps2_2 (W5 m c)

theorem W7_v18 (c : Dev nD) : W7 m c (Proc.devRef .tc main_v18) = (dat2 (V6 m) c).arrAt 3 cfg2.N := W7_arr m c 3
theorem W7_v14_1 (c : Dev nD) : W7 m c (Proc.devRef .tc main_v14_1) = (dat1 (V2 m) c).arrAt 2 cfg1.N := by
  rw [W7_of_ne m c main_v14_1 (by decide), W6_of m c main_v14_1 (by decide), W5_of m c main_v14_1 (by decide),
    W4_of m c main_v14_1 (by decide)]
  exact W3_v14_1 m c

theorem W8_v23 (c : Dev nD) : W8 m c (Proc.devRef .tc main_v23)
    = lossK ((dat2 (V6 m) c).arrAt 3 cfg2.N) ((dat1 (V2 m) c).arrAt 2 cfg1.N) := by
  rw [← W7_v18 m c, ← W7_v14_1 m c]
  exact after_hostOps3 (W7 m c)

end Cert.KernelIdeal.Hand

end
-- ==== Proof.Pay0.lean ====
import proofs.«420464_j10849087390119_2_alg».proof.Proof.Gen.KernelIdeal.Skeleton
import proofs.«420464_j10849087390119_2_alg».proof.Proof.Spec
import Idealize.ShloMosaic.PureOps.Ideal.Laws
import Idealize.ShloMosaic.Lib.ValueIdx

noncomputable section

namespace Cert.KernelIdeal.Hand

open Cert.KernelIdeal Cert.KernelIdeal.Gen Idealize.ShloMosaic Idealize.ShloMosaic.ValueIdx

theorem lhs_mm_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl

theorem lhs_mm_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q

theorem rhs_mm_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q

theorem rhs_mm_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

theorem k0_pay1_apply (a : Vec Ideal S5000x256 .f32) (w : Vec Ideal S256x64 .f32) (r : Fin 5000) (k : Fin 64) :
    k0_pay1 (F := Ideal) a w (ix2 r k) = ∑ j : Fin 256, a (ix2 r j) * w (ix2 j k) := by
  unfold k0_pay1
  simp only [matmul]
  rw [Ideal.matmul_constant_zero_apply,
    ← Equiv.sum_comp (contrEquiv1 dot_S5000x256_S256x64_S5000x64_1_0_0_1_n_n 256 rfl rfl).symm]
  refine Finset.sum_congr rfl fun j _ => ?_
  have hk := contrEquiv1_symm_val dot_S5000x256_S256x64_S5000x64_1_0_0_1_n_n 256 rfl rfl j
  have el : dot_S5000x256_S256x64_S5000x64_1_0_0_1_n_n.lhsIdx (ix2 r k)
      ((contrEquiv1 dot_S5000x256_S256x64_S5000x64_1_0_0_1_n_n 256 rfl rfl).symm j) = ix2 r j :=
    funext fun a => Fin.ext (by
      match a with
      | ⟨0, _⟩ => exact lhs_mm_0 _ _
      | ⟨1, _⟩ => exact (lhs_mm_1 _ _).trans hk)
  have er : dot_S5000x256_S256x64_S5000x64_1_0_0_1_n_n.rhsIdx (ix2 r k)
      ((contrEquiv1 dot_S5000x256_S256x64_S5000x64_1_0_0_1_n_n 256 rfl rfl).symm j) = ix2 j k :=
    funext fun a => Fin.ext (by
      match a with
      | ⟨0, _⟩ => exact (rhs_mm_0 _ _).trans hk
      | ⟨1, _⟩ => exact rhs_mm_1 _ _)
  rw [el, er]
  rfl

end Cert.KernelIdeal.Hand

end
-- ==== Proof.Val0.lean ====
import proofs.«420464_j10849087390119_2_alg».proof.Proof.R0
import proofs.«420464_j10849087390119_2_alg».proof.Proof.Spec
import proofs.«420464_j10849087390119_2_alg».proof.Proof.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz_r0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

abbrev G0 (c : Dev nD) : S100000x64.Idx → EReal :=
  fun i => Cert.Spec.xw (V c main_arg0) (V c main_arg1) (i 0) (i 1)

theorem iblk0_0_apply (c : Dev nD) (t : Fin cfg0.N) (x : S5000x256.Idx) (k : S100000x256.Idx)
    (hk0 : (k 0).val = 5000 * t.val + (x 0).val) (hk1 : (k 1).val = (x 1).val) :
    (iblk0 V c 0 t : Vec Ideal S5000x256 .f32) x = (V c main_arg0 : S100000x256.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

theorem iblk0_1_apply (c : Dev nD) (t : Fin cfg0.N) (x : S256x64.Idx) (k : S256x64.Idx)
    (hk0 : (k 0).val = (x 0).val) (hk1 : (k 1).val = (x 1).val) :
    (iblk0 V c 1 t : Vec Ideal S256x64 .f32) x = (V c main_arg1 : S256x64.Idx → EReal) k := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 256 + 1 * (x 0).val = (k 0).val; rw [e0, hk0]; omega
  | ⟨1, _⟩ => show win0_1.index t 1 * 64 + 1 * (x 1).val = (k 1).val; rw [e1, hk1]; omega

theorem flushed0_2_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz_r0]
  simp only [View.ld_unit_zero (S := S5000x256) hz_r0, View.ld_unit_zero (S := S256x64) hz_r0]
  obtain ⟨-, -, -, -, e0, e1⟩ := idx_facts0 t
  funext j
  obtain ⟨y, k, rfl⟩ : ∃ (y : Fin 5000) (k : Fin 64), j = ix2 y k := ⟨j 0, j 1, eq_ix2 j⟩
  show k0_pay1 (F := Ideal) (iblk0 V c 0 t) (iblk0 V c 1 t) (ix2 y k) = G0 V c (((cfg0.win 2).blk t).view.emb (ix2 y k))
  rw [k0_pay1_apply]
  unfold G0 Cert.Spec.xw
  refine Finset.sum_congr rfl fun q _ => ?_
  congr 1
  · refine iblk0_0_apply V c t _ _ ?_ rfl
    show win0_2.index t 0 * 5000 + 1 * y.val = 5000 * t.val + y.val
    rw [e0]; omega
  · refine iblk0_1_apply V c t _ _ rfl ?_
    show win0_2.index t 1 * 64 + 1 * k.val = k.val
    rw [e1]; omega

theorem mem_blk0_2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e0, e1⟩ := idx_facts0 t
  have ht : t.val = (i 0).val / 5000 := rfl
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

theorem arr0_2_eq (c : Dev nD) : (dat0 V c).arrAt 2 cfg0.N = G0 V c :=
  (dat0 V c).arrAt_eq_of_cover 2 (G0 V c) (fun t _ => flushed0_2_eq V c t) cover0

end Cert.KernelIdeal.Hand

end
-- ==== Proof.Pay1.lean ====
import proofs.«420464_j10849087390119_2_alg».proof.Proof.Gen.KernelIdeal.Skeleton
import proofs.«420464_j10849087390119_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

theorem idx11 (y : S1x1.Idx) : y = ix2 (0 : Fin 1) (0 : Fin 1) := by
  funext a
  match a with
  | ⟨0, _⟩ => exact Fin.ext (show (y 0).val = 0 from Nat.lt_one_iff.mp (show (y 0).val < 1 from (y 0).isLt))
  | ⟨1, _⟩ => exact Fin.ext (show (y 1).val = 0 from Nat.lt_one_iff.mp (show (y 1).val < 1 from (y 1).isLt))

section Layout
variable {α : Type}

theorem castCol_apply (v : S5000.Idx → α) (h : S5000.ShapeCasts S5000x1) (r : Fin 5000) (u : Fin 1) :
    shapeCast S5000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

theorem bcastCol_apply (v : S5000x1.Idx → α) (h : S5000x1.Broadcasts S5000x64) (r : Fin 5000) (k : Fin 64) :
    broadcastTo S5000x64 v h (ix2 r k) = v (ix2 r (0 : Fin 1)) := by
  refine broadcastTo_apply v h (ix2 r k) (ix2 r (0 : Fin 1)) fun ax => ?_
  match ax with
  | ⟨0, _⟩ => rfl
  | ⟨1, _⟩ => rfl

end Layout

theorem rowSum_apply (src : FVec Ideal S5000x64 .f32) (h : S5000x64.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 64, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

theorem colSum_apply (src : FVec Ideal S5000x1 .f32) (h : S5000x1.Reduces [0] S1) (hφ : FKind.Formats .f32)
    (hacc : (0x00000000#32 : BitVec 32) = 0x00000000#32) :
    multiReduction (F := Ideal) .add [0] S1 src 0x00000000#32 h hφ hacc (ix1 (0 : Fin 1))
      = ∑ r : Fin 5000, src (ix2 r (0 : Fin 1)) := by
  refine (Ideal.multiReduction_add_single src 0x00000000#32 h hφ hacc (ix1 (0 : Fin 1))).trans ?_
  refine Finset.sum_congr rfl fun r _ => congrArg src ?_
  funext a
  apply Fin.ext
  match a with
  | ⟨0, _⟩ => rfl
  | ⟨1, _⟩ => rfl

theorem k1_pay1_eq : k1_pay1 (F := Ideal) = fun _ => (0 : EReal) := by
  unfold k1_pay1
  simp only [shapeCast_self]
  funext i
  exact Ideal.ofBits_zero_f32

theorem k1_pay2_apply (x : Vec Ideal S5000x64 .f32) (r : Fin 5000) (k : Fin 64) :
    k1_pay2 (F := Ideal) x (ix2 r k) = Cert.Spec.embRow (fun j => x (ix2 r j)) k := by
  unfold k1_pay2
  simp only [shapeCast_self]
  rw [mulf_apply, bcastCol_apply]
  show Ideal.tanh (x (ix2 r k)) * Ideal.rsqrt (max (shapeCast S5000x1 _ _ (ix2 r (0 : Fin 1))) (Ideal.ofBits .f32 0x2B8CBCCC#32)) = _
  rw [castCol_apply, rowSum_apply]
  rfl

theorem k1_pay3_apply (x : Vec Ideal S5000x64 .f32) (acc : Vec Ideal S1x1 .f32) :
    k1_pay3 (F := Ideal) x acc (ix2 (0 : Fin 1) (0 : Fin 1))
      = acc (ix2 (0 : Fin 1) (0 : Fin 1)) + ∑ r : Fin 5000, ∑ k : Fin 64, Cert.Spec.embRow (fun j => x (ix2 r j)) k * Cert.Spec.embRow (fun j => x (ix2 r j)) k := by
  unfold k1_pay3
  simp only [shapeCast_self]
  rw [addf_apply, shapeCast_a_1a_apply, colSum_apply]
  refine congrArg (acc (ix2 (0 : Fin 1) (0 : Fin 1)) + ·) (Finset.sum_congr rfl fun r _ => ?_)
  rw [castCol_apply, rowSum_apply]
  refine Finset.sum_congr rfl fun k _ => ?_
  rw [mulf_apply, k1_pay2_apply]

end Cert.KernelIdeal.Hand

end
-- ==== Proof.Val1.lean ====
import proofs.«420464_j10849087390119_2_alg».proof.Proof.R1
import proofs.«420464_j10849087390119_2_alg».proof.Proof.Spec
import proofs.«420464_j10849087390119_2_alg».proof.Proof.Pay1
import Idealize.ShloMosaic.Lib.Pipeline.Value
import Idealize.ShloMosaic.Lib.ValueIdx
import Idealize.ShloMosaic.Lib.Tactic
import Mathlib.Logic.Equiv.Fin.Basic
import Mathlib.Algebra.BigOperators.Fin
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Pieces

variable {F : FTy → Type} [FloatOps F]

theorem hz2 : (![0, 0] : Fin 2 → Nat) = fun _ => 0 := funext fun a => by fin_cases a <;> rfl

section
variable (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S1x1 .f32) (harg4 : arg4.IsWhole)

theorem out1_A_1_eq (hc0 : cond1_0 i) (hc1 : ¬cond1_1 i) (x0 : Vec F S5000x64 .f32) :
    out1_A_1 c i arg1 harg1 arg2 harg2 arg3 harg3 arg4 harg4 hc0 hc1 x0 = k1_pay2 x0 := by
  unfold out1_A_1
  rw [View.read_writes_eq_canon _ _ _ (cover1_A_1 c i arg1 harg1 arg2 harg2 arg3 harg3 arg4 harg4 hc0 hc1 x0)]
  unfold kernelRun1_A
  dsimp only
  try sl_unfold_words
  rw [View.canon_unit_zero hz2]
  simp only [View.readAt_eq_ld, harg1.read_unread, View.ld_unit_zero (S := S5000x64) hz2]

theorem out1_B_1_eq (hc0 : ¬cond1_0 i) (hc1 : ¬cond1_1 i) (x0 : Vec F S5000x64 .f32) (xs0 : Vec F S1x1 .f32) :
    out1_B_1 c i arg1 harg1 arg2 harg2 arg3 harg3 arg4 harg4 hc0 hc1 x0 xs0 = k1_pay2 x0 := by
  unfold out1_B_1
  rw [View.read_writes_eq_canon _ _ _ (cover1_B_1 c i arg1 harg1 arg2 harg2 arg3 harg3 arg4 harg4 hc0 hc1 x0 xs0)]
  unfold kernelRun1_B
  dsimp only
  try sl_unfold_words
  rw [View.canon_unit_zero hz2]
  simp only [View.readAt_eq_ld, harg1.read_unread, View.ld_unit_zero (S := S5000x64) hz2]

theorem out1_C_1_eq (hc0 : ¬cond1_0 i) (hc1 : cond1_1 i) (x0 : Vec F S5000x64 .f32) (xs0 : Vec F S1x1 .f32) :
    out1_C_1 c i arg1 harg1 arg2 harg2 arg3 harg3 arg4 harg4 hc0 hc1 x0 xs0 = k1_pay2 x0 := by
  unfold out1_C_1
  rw [View.read_writes_eq_canon _ _ _ (cover1_C_1 c i arg1 harg1 arg2 harg2 arg3 harg3 arg4 harg4 hc0 hc1 x0 xs0)]
  unfold kernelRun1_C
  dsimp only
  try sl_unfold_words
  rw [View.canon_unit_zero hz2]
  simp only [View.readAt_eq_ld, harg1.read_unread, View.ld_unit_zero (S := S5000x64) hz2]

theorem sout1_A_0_eq (hc0 : cond1_0 i) (hc1 : ¬cond1_1 i) (x0 : Vec F S5000x64 .f32) :
    sout1_A_0 c i arg1 harg1 arg2 harg2 arg3 harg3 arg4 harg4 hc0 hc1 x0 = k1_pay3 x0 (k1_pay1 (F := F)) := by
  unfold sout1_A_0
  rw [View.read_writes_eq_canon _ _ _ (scover1_A_0 c i arg1 harg1 arg2 harg2 arg3 harg3 arg4 harg4 hc0 hc1 x0)]
  unfold kernelRun1_A
  dsimp only
  try sl_unfold_words
  rw [View.canon_cons_unit_zero (S := S1x1) hz2]
  simp only [View.readAt_eq_ld, harg1.read_unread, View.ld_unit_zero (S := S5000x64) hz2, View.readCov_unit_zero (S := S1x1) _ hz2]

theorem sout1_B_0_eq (hc0 : ¬cond1_0 i) (hc1 : ¬cond1_1 i) (x0 : Vec F S5000x64 .f32) (xs0 : Vec F S1x1 .f32) :
    sout1_B_0 c i arg1 harg1 arg2 harg2 arg3 harg3 arg4 harg4 hc0 hc1 x0 xs0 = k1_pay3 x0 xs0 := by
  unfold sout1_B_0
  rw [View.read_writes_eq_canon _ _ _ (scover1_B_0 c i arg1 harg1 arg2 harg2 arg3 harg3 arg4 harg4 hc0 hc1 x0 xs0)]
  unfold kernelRun1_B
  dsimp only
  try sl_unfold_words
  rw [View.canon_unit_zero hz2]
  simp only [View.readAt_eq_ld, harg1.read_unread, harg4.read_unread, View.ld_unit_zero (S := S5000x64) hz2, View.ld_unit_zero (S := S1x1) hz2]

theorem sout1_C_0_eq (hc0 : ¬cond1_0 i) (hc1 : cond1_1 i) (x0 : Vec F S5000x64 .f32) (xs0 : Vec F S1x1 .f32) :
    sout1_C_0 c i arg1 harg1 arg2 harg2 arg3 harg3 arg4 harg4 hc0 hc1 x0 xs0 = k1_pay3 x0 xs0 := by
  unfold sout1_C_0
  rw [View.read_writes_eq_canon _ _ _ (scover1_C_0 c i arg1 harg1 arg2 harg2 arg3 harg3 arg4 harg4 hc0 hc1 x0 xs0)]
  unfold kernelRun1_C
  dsimp only
  try sl_unfold_words
  rw [View.canon_unit_zero hz2]
  simp only [View.readAt_eq_ld, harg1.read_unread, harg4.read_unread, View.ld_unit_zero (S := S5000x64) hz2, View.ld_unit_zero (S := S1x1) hz2]

theorem out1_C_2_eq (hc0 : ¬cond1_0 i) (hc1 : cond1_1 i) (x0 : Vec F S5000x64 .f32) (xs0 : Vec F S1x1 .f32) :
    out1_C_2 c i arg1 harg1 arg2 harg2 arg3 harg3 arg4 harg4 hc0 hc1 x0 xs0 = k1_pay3 x0 xs0 := by
  unfold out1_C_2
  rw [View.read_writes_eq_canon _ _ _ (cover1_C_2 c i arg1 harg1 arg2 harg2 arg3 harg3 arg4 harg4 hc0 hc1 x0 xs0)]
  unfold kernelRun1_C
  dsimp only
  try sl_unfold_words
  rw [View.canon_unit_zero hz2]
  simp only [View.readAt_eq_ld, harg1.read_unread, harg4.read_unread, View.ld_unit_zero (S := S5000x64) hz2, View.ld_unit_zero (S := S1x1) hz2, View.readCov_unit_zero (S := S1x1) _ hz2]

end

end Pieces

theorem sum_rows_by_block (g : Fin 100000 → EReal) :
    ∑ t : Fin 20, ∑ r : Fin 5000, g ⟨5000 * t.val + r.val, by have := t.isLt; have := r.isLt; omega⟩ = ∑ R : Fin 100000, g R := by
  rw [← Fintype.sum_prod_type (f := fun x : Fin 20 × Fin 5000 => g ⟨5000 * x.1.val + x.2.val, by have := x.1.isLt; have := x.2.isLt; omega⟩)]
  refine Fintype.sum_equiv (finProdFinEquiv (m := 20) (n := 5000)) _ _ fun x => ?_
  refine congrArg g (Fin.ext ?_)
  show 5000 * x.1.val + x.2.val = x.2.val + 5000 * x.1.val
  omega

section Value

variable (V : (c : Dev nD) → (b : Ref sig .tc) → Buf (Elt Ideal) ((c : Thread nD τ).loc b))

abbrev harr (c : Dev nD) : Vec Ideal S100000x64 .f32 := V c main_v13

abbrev xblk (c : Dev nD) (t : Fin cfg1.N) : Vec Ideal S5000x64 .f32 := iblk1 V c 0 t

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)

theorem xblk_apply (c : Dev nD) (t : Fin cfg1.N) (r : Fin 5000) (k : Fin 64) (R : Fin 100000) (hR : R.val = 5000 * t.val + r.val) :
    xblk V c t (ix2 r k) = harr V c (ix2 R k) := by
  obtain ⟨h0, h1⟩ := idx1_0 t
  show ((cfg1.win 0).blk t).view.read (Elt Ideal) (V c (Pipeline.arrRef spec1 0)) (ix2 r k) = V c main_v13 (ix2 R k)
  rw [View.read_apply]
  show V c main_v13 _ = V c main_v13 _
  congr 1
  funext a
  apply Fin.ext
  match a with
  | ⟨0, _⟩ => show win1_0.index t 0 * 5000 + 1 * r.val = R.val; rw [h0, hR]; omega
  | ⟨1, _⟩ => show win1_0.index t 1 * 64 + 1 * k.val = k.val; rw [h1]; omega

def blockSq (x : Vec Ideal S5000x64 .f32) : EReal :=
  ∑ r : Fin 5000, ∑ k : Fin 64, Cert.Spec.embRow (fun j => x (ix2 r j)) k * Cert.Spec.embRow (fun j => x (ix2 r j)) k

def contrib (c : Dev nD) (n : ℕ) : EReal := if h : n < cfg1.N then blockSq (xblk V c ⟨n, h⟩) else 0

theorem blockSq_xblk (c : Dev nD) (t : Fin cfg1.N) (ht : t.val < 20) :
    blockSq (xblk V c t) = ∑ r : Fin 5000, ∑ k : Fin 64,
      Cert.Spec.emb (harr V c) ⟨5000 * t.val + r.val, by have := r.isLt; omega⟩ k * Cert.Spec.emb (harr V c) ⟨5000 * t.val + r.val, by have := r.isLt; omega⟩ k := by
  unfold blockSq
  refine Finset.sum_congr rfl fun r _ => Finset.sum_congr rfl fun k _ => ?_
  have e : (fun j => xblk V c t (ix2 r j)) = fun j => harr V c (ix2 (⟨5000 * t.val + r.val, by have := r.isLt; omega⟩ : Fin 100000) j) :=
    funext fun j => xblk_apply V c t r j ⟨5000 * t.val + r.val, by have := r.isLt; omega⟩ rfl
  rw [e]
  rfl

theorem outsAt1_fst (c : Dev nD) (t : Fin cfg1.N) : (outsAt1 V c t.val t.isLt).1 = k1_pay2 (xblk V c t) := by
  have hN : t.val < 20 := lt_of_lt_of_eq t.isLt (show cfg1.N = 20 from N_1)
  by_cases hz : t.val = 0
  · have hc0 : cond1_0 (grid1.coords t) := (hcond1_0 t).mpr (by omega)
    have hc1 : ¬cond1_1 (grid1.coords t) := fun h => by have := (hcond1_1 t).mp h; omega
    rw [outsAt1_A V c t hz hc0 hc1]; dsimp only [outs1_A]
    exact out1_A_1_eq (F := Ideal) c (grid1.coords t) (ms1_0 t) (hs1_0 t) (ms1_1 t) (hs1_1 t) (ms1_2 t) (hs1_2 t) scM1_0 (Memref.isWhole_whole _) hc0 hc1 (iblk1 V c 0 t)
  · have hc0 : ¬cond1_0 (grid1.coords t) := fun h => by have := (hcond1_0 t).mp h; omega
    by_cases h1 : t.val % 20 = 19
    · have hc1 : cond1_1 (grid1.coords t) := (hcond1_1 t).mpr h1
      rw [outsAt1_C V c t hz h1 hc0 hc1]; dsimp only [outs1_C]
      exact out1_C_1_eq (F := Ideal) c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2
    · have hc1 : ¬cond1_1 (grid1.coords t) := fun h => h1 ((hcond1_1 t).mp h)
      rw [outsAt1_B V c t hz h1 hc0 hc1]; dsimp only [outs1_B]
      exact out1_B_1_eq (F := Ideal) c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2

theorem outsAt1_scr (c : Dev nD) : ∀ (n : ℕ) (hn : n < cfg1.N),
    (outsAt1 V c n hn).2.2 (ix2 (0 : Fin 1) (0 : Fin 1)) = ∑ t ∈ Finset.range (n + 1), contrib V c t
  | 0, hn => by
    rw [outsAt1_A V c ⟨0, hn⟩ rfl (hc0_zero hn) (nhc1_zero hn)]; dsimp only [outs1_A]
    rw [sout1_A_0_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (hc0_zero hn) (nhc1_zero hn) (iblk1 V c 0 ⟨0, hn⟩), k1_pay3_apply, k1_pay1_eq]
    rw [Finset.sum_range_one]
    unfold contrib
    rw [dif_pos hn, zero_add]
    rfl
  | n + 1, hn => by
    have ih := outsAt1_scr c n (Nat.lt_of_succ_lt hn)
    rw [Finset.sum_range_succ, ← ih]
    have hc : contrib V c (n + 1) = blockSq (xblk V c ⟨n + 1, hn⟩) := by unfold contrib; rw [dif_pos hn]
    rw [hc]
    by_cases h1 : (n + 1) % 20 = 19
    · rw [outsAt1_C V c ⟨n + 1, hn⟩ (Nat.succ_ne_zero n) h1 (nhc0_succ n hn) ((hcond1_1 ⟨n + 1, hn⟩).mpr h1)]; dsimp only [outs1_C]
      rw [sout1_C_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) ((hcond1_1 ⟨n + 1, hn⟩).mpr h1) (iblk1 V c 0 ⟨n + 1, hn⟩) (outsAt1 V c (n + 1 - 1) (Nat.lt_of_le_of_lt (Nat.sub_le _ _) hn)).2.2, k1_pay3_apply]
      rfl
    · rw [outsAt1_B V c ⟨n + 1, hn⟩ (Nat.succ_ne_zero n) h1 (nhc0_succ n hn) (fun h => h1 ((hcond1_1 ⟨n + 1, hn⟩).mp h))]; dsimp only [outs1_B]
      rw [sout1_B_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nhc0_succ n hn) (fun h => h1 ((hcond1_1 ⟨n + 1, hn⟩).mp h)) (iblk1 V c 0 ⟨n + 1, hn⟩) (outsAt1 V c (n + 1 - 1) (Nat.lt_of_le_of_lt (Nat.sub_le _ _) hn)).2.2, k1_pay3_apply]
      rfl

theorem outsAt1_last (c : Dev nD) (t : Fin cfg1.N) (h1 : t.val % 20 = 19) :
    (outsAt1 V c t.val t.isLt).2.1 = (outsAt1 V c t.val t.isLt).2.2 := by
  have hN : t.val < 20 := lt_of_lt_of_eq t.isLt (show cfg1.N = 20 from N_1)
  have hz : t.val ≠ 0 := by omega
  have hc0 : ¬cond1_0 (grid1.coords t) := fun h => by have := (hcond1_0 t).mp h; omega
  have hc1 : cond1_1 (grid1.coords t) := (hcond1_1 t).mpr h1
  rw [outsAt1_C V c t hz h1 hc0 hc1]; dsimp only [outs1_C]
  rw [out1_C_2_eq (F := Ideal) c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2,
    sout1_C_0_eq (F := Ideal) c (grid1.coords t) (ms1_0 t) (hs1_0 t) (ms1_1 t) (hs1_1 t) (ms1_2 t) (hs1_2 t) scM1_0 (Memref.isWhole_whole _) hc0 hc1 (iblk1 V c 0 t) (outsAt1 V c (t.val - 1) (Nat.lt_of_le_of_lt (Nat.sub_le _ _) t.isLt)).2.2]

theorem sum_contrib (c : Dev nD) : ∑ t ∈ Finset.range 20, contrib V c t = Cert.Spec.sumsq (harr V c) := by
  rw [Finset.sum_range]
  unfold Cert.Spec.sumsq
  rw [← sum_rows_by_block (fun R => ∑ k : Fin 64, Cert.Spec.emb (harr V c) R k * Cert.Spec.emb (harr V c) R k)]
  refine Finset.sum_congr rfl fun t _ => ?_
  have ht : t.val < cfg1.N := lt_of_lt_of_eq t.isLt (show 20 = cfg1.N from N_1.symm)
  unfold contrib
  rw [dif_pos ht]
  exact blockSq_xblk V c ⟨t.val, ht⟩ t.isLt

abbrev G1 (c : Dev nD) : Buf (Elt Ideal) ((c : Thread nD τ).loc main_v14_0) :=
  (fun i => Cert.Spec.emb (harr V c) (i 0) (i 1) : Vec Ideal S100000x64 .f32)

theorem xsize1_1 : ∀ t : Fin cfg1.N, win1_1.xsize (grid1.coords t) 0 = 5000 ∧ win1_1.xsize (grid1.coords t) 1 = 64 :=
  (by decide +kernel : ∀ t : Fin grid1.N, win1_1.xsize (grid1.coords t) 0 = 5000 ∧ win1_1.xsize (grid1.coords t) 1 = 64)

theorem flushed1_eq (c : Dev nD) (t : Fin cfg1.N) (hf : (cfg1.win 1).flush t = true) :
    (dat1 V c).flushed 1 t = ((cfg1.win 1).blk t).view.read (Elt Ideal) (G1 V c) := by
  obtain ⟨h0, h1⟩ := idx1_1 t
  have hN : t.val < 20 := lt_of_lt_of_eq t.isLt (show cfg1.N = 20 from N_1)
  show (cfg1.win 1).cut (grid1.coords t) ((dat1 V c).after 1 t) = _
  rw [after1_1, outsAt1_fst]
  funext y
  change S5000x64.Idx at y
  obtain ⟨r, k, rfl⟩ : ∃ (r : Fin 5000) (k : Fin 64), y = ix2 r k := ⟨y 0, y 1, eq_ix2 y⟩
  rw [View.read_apply]
  show k1_pay2 (xblk V c t) (ix2 r k) = Cert.Spec.emb (harr V c) _ _
  refine (k1_pay2_apply (xblk V c t) r k).trans ?_
  have e : (fun j => xblk V c t (ix2 r j)) = fun j => harr V c (ix2 (⟨5000 * t.val + r.val, by have := r.isLt; omega⟩ : Fin 100000) j) :=
    funext fun j => xblk_apply V c t r j ⟨5000 * t.val + r.val, by have := r.isLt; omega⟩ rfl
  rw [e]
  show Cert.Spec.emb (harr V c) ⟨5000 * t.val + r.val, _⟩ k = Cert.Spec.emb (harr V c) _ _
  congr 1
  · apply Fin.ext
    show 5000 * t.val + r.val = win1_1.index t 0 * 5000 + 1 * r.val
    rw [h0]; omega
  · apply Fin.ext
    show k.val = win1_1.index t 1 * 64 + 1 * k.val
    rw [h1]; omega

theorem arr1_1_eq (c : Dev nD) : (dat1 (F := Ideal) V c).arrAt 1 cfg1.N = G1 V c :=
  (dat1 V c).arrAt_eq_of_cover 1 (G1 V c) (flushed1_eq V c) fun i => by
    change S100000x64.Idx at i
    have hi0 : (i 0).val < 100000 := (i 0).isLt
    have hi1 : (i 1).val < 64 := (i 1).isLt
    have hlt : (i 0).val / 5000 < cfg1.N := by rw [show cfg1.N = 20 from N_1]; omega
    refine ⟨⟨(i 0).val / 5000, hlt⟩, flush1_1 _, ?_⟩
    obtain ⟨h0, h1⟩ := idx1_1 ⟨(i 0).val / 5000, hlt⟩
    obtain ⟨x0, x1⟩ := xsize1_1 ⟨(i 0).val / 5000, hlt⟩
    show i ∈ ((View.whole main_v14_0).slice (win1_1.rect ⟨(i 0).val / 5000, hlt⟩)).set
    rw [View.set_slice_whole, Rect.mem_set_unit]
    intro a
    match a with
    | ⟨0, _⟩ =>
      show win1_1.index ⟨(i 0).val / 5000, hlt⟩ 0 * win1_1.size 0 ≤ (i 0 : Nat) ∧ (i 0 : Nat) < win1_1.index ⟨(i 0).val / 5000, hlt⟩ 0 * win1_1.size 0 + win1_1.xsize (grid1.coords ⟨(i 0).val / 5000, hlt⟩) 0
      rw [h0, x0, show win1_1.size 0 = 5000 from rfl]
      show (i 0).val / 5000 * 5000 ≤ (i 0).val ∧ (i 0).val < (i 0).val / 5000 * 5000 + 5000
      omega
    | ⟨1, _⟩ =>
      show win1_1.index ⟨(i 0).val / 5000, hlt⟩ 1 * win1_1.size 1 ≤ (i 1 : Nat) ∧ (i 1 : Nat) < win1_1.index ⟨(i 0).val / 5000, hlt⟩ 1 * win1_1.size 1 + win1_1.xsize (grid1.coords ⟨(i 0).val / 5000, hlt⟩) 1
      rw [h1, x1, show win1_1.size 1 = 64 from rfl]
      omega

theorem final1_emb (c : Dev nD) (r : Fin 100000) (k : Fin 64) :
    (dat1 (F := Ideal) V c).arrAt 1 cfg1.N (ix2 r k) = Cert.Spec.emb (V c main_v13) r k := by
  rw [arr1_1_eq]

abbrev G2 (c : Dev nD) : Buf (Elt Ideal) ((c : Thread nD τ).loc main_v14_1) :=
  (fun _ => Cert.Spec.sumsq (harr V c) : Vec Ideal S1x1 .f32)

theorem blk2_read_const (t : Fin cfg1.N) (s : EReal) (y : S1x1.Idx) :
    ((cfg1.win 2).blk t).view.read (Elt Ideal) ((fun _ => s : Vec Ideal S1x1 .f32)) y = s := by
  rw [View.read_apply]; rfl

theorem xsize1_2 : ∀ t : Fin cfg1.N, win1_2.xsize (grid1.coords t) 0 = 1 ∧ win1_2.xsize (grid1.coords t) 1 = 1 :=
  (by decide +kernel : ∀ t : Fin grid1.N, win1_2.xsize (grid1.coords t) 0 = 1 ∧ win1_2.xsize (grid1.coords t) 1 = 1)

theorem flushed2_eq (c : Dev nD) (t : Fin cfg1.N) (hf : (cfg1.win 2).flush t = true) :
    (dat1 V c).flushed 2 t = ((cfg1.win 2).blk t).view.read (Elt Ideal) (G2 V c) := by
  have hN : t.val < 20 := lt_of_lt_of_eq t.isLt (show cfg1.N = 20 from N_1)
  have h1 : t.val % 20 = 19 := (flush1_2 t).mp hf
  show (cfg1.win 2).cut (grid1.coords t) ((dat1 V c).after 2 t) = _
  rw [after1_2, outsAt1_last V c t h1]
  funext y
  change S1x1.Idx at y
  refine Eq.trans ?_ (blk2_read_const t (Cert.Spec.sumsq (harr V c)) y).symm
  show (outsAt1 V c t.val t.isLt).2.2 y = _
  rw [idx11 y, outsAt1_scr V c t.val t.isLt, show t.val + 1 = 20 from by omega]
  exact sum_contrib V c

theorem arr1_2_eq (c : Dev nD) : (dat1 (F := Ideal) V c).arrAt 2 cfg1.N = G2 V c :=
  (dat1 V c).arrAt_eq_of_cover 2 (G2 V c) (flushed2_eq V c) fun i => by
    change S1x1.Idx at i
    have hi0 : (i 0).val < 1 := (i 0).isLt
    have hi1 : (i 1).val < 1 := (i 1).isLt
    have hlt : 19 < cfg1.N := by rw [show cfg1.N = 20 from N_1]; omega
    refine ⟨⟨19, hlt⟩, (flush1_2 _).mpr rfl, ?_⟩
    obtain ⟨h0, h1⟩ := idx1_2 ⟨19, hlt⟩
    obtain ⟨x0, x1⟩ := xsize1_2 ⟨19, hlt⟩
    show i ∈ ((View.whole main_v14_1).slice (win1_2.rect ⟨19, hlt⟩)).set
    rw [View.set_slice_whole, Rect.mem_set_unit]
    intro a
    match a with
    | ⟨0, _⟩ =>
      show win1_2.index ⟨19, hlt⟩ 0 * win1_2.size 0 ≤ (i 0 : Nat) ∧ (i 0 : Nat) < win1_2.index ⟨19, hlt⟩ 0 * win1_2.size 0 + win1_2.xsize (grid1.coords ⟨19, hlt⟩) 0
      rw [h0, x0]
      omega
    | ⟨1, _⟩ =>
      show win1_2.index ⟨19, hlt⟩ 1 * win1_2.size 1 ≤ (i 1 : Nat) ∧ (i 1 : Nat) < win1_2.index ⟨19, hlt⟩ 1 * win1_2.size 1 + win1_2.xsize (grid1.coords ⟨19, hlt⟩) 1
      rw [h1, x1]
      omega

theorem final1_sumsq (c : Dev nD) :
    (dat1 (F := Ideal) V c).arrAt 2 cfg1.N (ix2 (0 : Fin 1) (0 : Fin 1)) = Cert.Spec.sumsq (V c main_v13) := by
  rw [arr1_2_eq]

end Value

end Cert.KernelIdeal.Hand

end
-- ==== Proof.Pay2.lean ====
import proofs.«420464_j10849087390119_2_alg».proof.Proof.Gen.KernelIdeal.Skeleton
import proofs.«420464_j10849087390119_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

theorem shapeCast_512_512x1_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem rowsum_apply (v : FVec Ideal S512x64 .f32) (r : Fin 512) :
    shapeCast S512x1 (multiReduction (F := Ideal) .add [1] S512 v 0x00000000#32 reduces_S512x64_S512 (.inl rfl) rfl)
        shapeCasts_S512_S512x1 (ix2 r (0 : Fin 1))
      = ∑ k : Fin 64, v (ix2 r k) := by
  refine (shapeCast_512_512x1_apply _ _ r 0).trans ?_
  refine (Ideal.multiReduction_add_single v 0x00000000#32 reduces_S512x64_S512 (.inl rfl) rfl (ix1 r)).trans ?_
  refine Finset.sum_congr rfl fun k _ => congrArg v ?_
  funext a
  match a with
  | ⟨0, _⟩ => rfl
  | ⟨1, _⟩ => rfl

theorem colsum_apply (c : FVec Ideal S512x1 .f32) :
    shapeCast S1x1 (multiReduction (F := Ideal) .add [0] S1 c 0x00000000#32 reduces_S512x1_S1 (.inl rfl) rfl)
        shapeCasts_S1_S1x1 (ix2 (0 : Fin 1) (0 : Fin 1))
      = ∑ r : Fin 512, c (ix2 r (0 : Fin 1)) := by
  refine (shapeCast_a_1a_apply _ _ 0 0).trans ?_
  refine (Ideal.multiReduction_add_single c 0x00000000#32 reduces_S512x1_S1 (.inl rfl) rfl (ix1 (0 : Fin 1))).trans ?_
  refine Finset.sum_congr rfl fun r _ => congrArg c ?_
  funext a
  match a with
  | ⟨0, _⟩ => rfl
  | ⟨1, _⟩ => rfl

theorem exp_apply' {s : Shape} {φ : FTy} (a : FVec Ideal s φ) (i : s.Idx) : exp a i = Ideal.exp (a i) := rfl

theorem log1p_apply' {s : Shape} {φ : FTy} (a : FVec Ideal s φ) (i : s.Idx) : log1p a i = Ideal.log1p (a i) := rfl

theorem absf_apply' {s : Shape} {φ : FTy} (a : FVec Ideal s φ) (i : s.Idx) : absf a i = max (a i) (-(a i)) := rfl

theorem zeroWord : (Scalar.ofBits (F := Ideal) .f32 0x00000000#32 : EReal) = 0 := Ideal.ofBits_zero_f32

theorem cmp_one_self (x : EReal) : FloatOps.cmpf (F := Ideal) (φ := .f32) .one x x = 0#1 := by
  show Ideal.cmp .one x x = 0#1
  simp [Ideal.cmp]

theorem tail_scalar (d : EReal) :
    (0 : EReal) - (0 - Scalar.select (FloatOps.cmpf (F := Ideal) (φ := .f32) .one (0 - d - 0) (0 - d - 0)) (0 - d + 0)
        (max (0 - d) 0 + Ideal.log1p (Ideal.exp (0 - max (0 - d - 0) (-(0 - d - 0))))))
      = Cert.Spec.softplus (-d) := by
  rw [cmp_one_self, select_zero, zero_sub, zero_sub, neg_neg, sub_zero, zero_sub, zero_sub]
  rfl

theorem k2_pay1_eq (v : FVec Ideal S1x1 .f32) : k2_pay1 (F := Ideal) v = v :=
  shapeCast_self v shapeCasts_S1x1_S1x1

theorem k2_pay2_eq : k2_pay2 (F := Ideal) = fun _ => (0 : EReal) := by
  unfold k2_pay2
  refine (shapeCast_self _ shapeCasts_S1x1_S1x1).trans ?_
  funext i
  exact zeroWord

theorem row_term (a b n : FVec Ideal S512x64 .f32) (r : Fin 512) :
    (0 : EReal) - (0 - Scalar.select
        (FloatOps.cmpf (F := Ideal) (φ := .f32) .one
          (0 - ((∑ k : Fin 64, a (ix2 r k) * b (ix2 r k)) - (∑ k : Fin 64, a (ix2 r k) * n (ix2 r k))) - 0)
          (0 - ((∑ k : Fin 64, a (ix2 r k) * b (ix2 r k)) - (∑ k : Fin 64, a (ix2 r k) * n (ix2 r k))) - 0))
        (0 - ((∑ k : Fin 64, a (ix2 r k) * b (ix2 r k)) - (∑ k : Fin 64, a (ix2 r k) * n (ix2 r k))) + 0)
        (max (0 - ((∑ k : Fin 64, a (ix2 r k) * b (ix2 r k)) - (∑ k : Fin 64, a (ix2 r k) * n (ix2 r k)))) 0
          + Ideal.log1p (Ideal.exp (0 - max
              (0 - ((∑ k : Fin 64, a (ix2 r k) * b (ix2 r k)) - (∑ k : Fin 64, a (ix2 r k) * n (ix2 r k))) - 0)
              (-(0 - ((∑ k : Fin 64, a (ix2 r k) * b (ix2 r k)) - (∑ k : Fin 64, a (ix2 r k) * n (ix2 r k))) - 0))))))
      = Cert.Spec.bprTerm (fun k => a (ix2 r k)) (fun k => b (ix2 r k)) (fun k => n (ix2 r k)) :=
  tail_scalar _

theorem k2_pay3_apply (a b n : Vec Ideal S512x64 .f32) (acc : Vec Ideal S1x1 .f32) :
    k2_pay3 (F := Ideal) a b n acc (ix2 (0 : Fin 1) (0 : Fin 1))
      = acc (ix2 (0 : Fin 1) (0 : Fin 1)) + ∑ r : Fin 512, Cert.Spec.bprTerm (fun k => a (ix2 r k)) (fun k => b (ix2 r k)) (fun k => n (ix2 r k)) := by
  unfold k2_pay3
  refine (addf_apply _ _ _).trans ?_
  refine congrArg (acc (ix2 (0 : Fin 1) (0 : Fin 1)) + ·) ?_
  refine (colsum_apply _).trans ?_
  refine Finset.sum_congr rfl fun r _ => ?_
  refine Eq.trans ?_ (row_term a b n r)
  simp only [subf_apply, addf_apply, maximumf_apply, broadcast_apply, select_apply, cmpf_apply, exp_apply', log1p_apply',
    absf_apply', zeroWord, shapeCast_self]
  rw [rowsum_apply (mulf a b) r, rowsum_apply (mulf a n) r]
  rfl

end Cert.KernelIdeal.Hand

end
-- ==== Proof.SumBlocks.lean ====
import Mathlib.Data.Fintype.BigOperators
import Mathlib.Logic.Equiv.Fin.Basic

namespace Cert.SumBlocks

open scoped BigOperators

theorem sum_blocks {M : Type*} [AddCommMonoid M] (T B : ℕ) (g : ℕ → M) :
    ∑ t : Fin T, ∑ r : Fin B, g (B * t.val + r.val) = ∑ R : Fin (T * B), g R.val := by
  refine (Fintype.sum_prod_type' (fun (t : Fin T) (r : Fin B) => g (B * t.val + r.val))).symm.trans ?_
  refine Fintype.sum_equiv finProdFinEquiv _ _ fun p => ?_
  show g (B * p.1.val + p.2.val) = g (p.2.val + B * p.1.val)
  rw [Nat.add_comm]

theorem sum_blocks_8_512 {M : Type*} [AddCommMonoid M] (g : ℕ → M) :
    ∑ t : Fin 8, ∑ r : Fin 512, g (512 * t.val + r.val) = ∑ R : Fin 4096, g R.val :=
  sum_blocks 8 512 g

end Cert.SumBlocks
-- ==== Proof.Val2.lean ====
import proofs.«420464_j10849087390119_2_alg».proof.Proof.R2
import proofs.«420464_j10849087390119_2_alg».proof.Proof.Spec
import proofs.«420464_j10849087390119_2_alg».proof.Proof.Pay2
import proofs.«420464_j10849087390119_2_alg».proof.Proof.SumBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Pieces

variable {F : FTy → Type} [FloatOps F]

theorem hz11 : (![0, 0] : Fin 2 → Nat) = fun _ => 0 := funext fun a => by fin_cases a <;> rfl

section
variable (c : Dev nD) (i : grid2.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole)

theorem sout2_A_0_eq (hc0 : cond2_0 i) (hc1 : ¬cond2_1 i) (x0 : Vec F S512x64 .f32) (x1 : Vec F S512x64 .f32) (x2 : Vec F S512x64 .f32) :
    sout2_A_0 c i arg1 harg1 arg2 harg2 arg3 harg3 arg4 harg4 arg5 harg5 hc0 hc1 x0 x1 x2 = k2_pay1 (k2_pay3 x0 x1 x2 (k2_pay2 (F := F))) := by
  unfold sout2_A_0; rw [View.read_writes_eq_canon _ _ _ (scover2_A_0 c i arg1 harg1 arg2 harg2 arg3 harg3 arg4 harg4 arg5 harg5 hc0 hc1 x0 x1 x2)]; unfold kernelRun2_A; dsimp only; sl_unfold_words
  rw [View.canon_cons_unit_zero (S := S1x1) hz11]
  simp only [View.readAt_eq_ld, harg1.read_unread, harg2.read_unread, harg3.read_unread, harg5.read_unread, View.ld_unit_zero (S := S512x64) hz11, View.ld_unit_zero (S := S1x1) hz11, View.readCov_unit_zero (S := S1x1) _ hz11]

theorem sout2_B_0_eq (hc0 : ¬cond2_0 i) (hc1 : ¬cond2_1 i) (x0 : Vec F S512x64 .f32) (x1 : Vec F S512x64 .f32) (x2 : Vec F S512x64 .f32) (xs0 : Vec F S1x1 .f32) :
    sout2_B_0 c i arg1 harg1 arg2 harg2 arg3 harg3 arg4 harg4 arg5 harg5 hc0 hc1 x0 x1 x2 xs0 = k2_pay1 (k2_pay3 x0 x1 x2 xs0) := by
  unfold sout2_B_0; rw [View.read_writes_eq_canon _ _ _ (scover2_B_0 c i arg1 harg1 arg2 harg2 arg3 harg3 arg4 harg4 arg5 harg5 hc0 hc1 x0 x1 x2 xs0)]; unfold kernelRun2_B; dsimp only; sl_unfold_words
  rw [View.canon_unit_zero (S := S1x1) hz11]
  simp only [View.readAt_eq_ld, harg1.read_unread, harg2.read_unread, harg3.read_unread, harg5.read_unread, View.ld_unit_zero (S := S512x64) hz11, View.ld_unit_zero (S := S1x1) hz11, View.readCov_unit_zero (S := S1x1) _ hz11]

theorem sout2_C_0_eq (hc0 : ¬cond2_0 i) (hc1 : cond2_1 i) (x0 : Vec F S512x64 .f32) (x1 : Vec F S512x64 .f32) (x2 : Vec F S512x64 .f32) (xs0 : Vec F S1x1 .f32) :
    sout2_C_0 c i arg1 harg1 arg2 harg2 arg3 harg3 arg4 harg4 arg5 harg5 hc0 hc1 x0 x1 x2 xs0 = k2_pay1 (k2_pay3 x0 x1 x2 xs0) := by
  unfold sout2_C_0; rw [View.read_writes_eq_canon _ _ _ (scover2_C_0 c i arg1 harg1 arg2 harg2 arg3 harg3 arg4 harg4 arg5 harg5 hc0 hc1 x0 x1 x2 xs0)]; unfold kernelRun2_C; dsimp only; sl_unfold_words
  rw [View.canon_unit_zero (S := S1x1) hz11]
  simp only [View.readAt_eq_ld, harg1.read_unread, harg2.read_unread, harg3.read_unread, harg5.read_unread, View.ld_unit_zero (S := S512x64) hz11, View.ld_unit_zero (S := S1x1) hz11, View.readCov_unit_zero (S := S1x1) _ hz11]

theorem out2_C_3_eq (hc0 : ¬cond2_0 i) (hc1 : cond2_1 i) (x0 : Vec F S512x64 .f32) (x1 : Vec F S512x64 .f32) (x2 : Vec F S512x64 .f32) (xs0 : Vec F S1x1 .f32) :
    out2_C_3 c i arg1 harg1 arg2 harg2 arg3 harg3 arg4 harg4 arg5 harg5 hc0 hc1 x0 x1 x2 xs0 = k2_pay1 (k2_pay3 x0 x1 x2 xs0) := by
  unfold out2_C_3; rw [View.read_writes_eq_canon _ _ _ (cover2_C_3 c i arg1 harg1 arg2 harg2 arg3 harg3 arg4 harg4 arg5 harg5 hc0 hc1 x0 x1 x2 xs0)]; unfold kernelRun2_C; dsimp only; sl_unfold_words
  rw [View.canon_unit_zero (S := S1x1) hz11]
  simp only [View.readAt_eq_ld, harg1.read_unread, harg2.read_unread, harg3.read_unread, harg5.read_unread, View.ld_unit_zero (S := S512x64) hz11, View.ld_unit_zero (S := S1x1) hz11, View.readCov_unit_zero (S := S1x1) _ hz11]

end

end Pieces

variable (V : (c : Dev nD) → (b : Ref sig .tc) → Buf (Elt Ideal) ((c : Thread nD τ).loc b))

abbrev blkA (c : Dev nD) (t : Fin cfg2.N) : Vec Ideal S512x64 .f32 := iblk2 V c 0 t
abbrev blkB (c : Dev nD) (t : Fin cfg2.N) : Vec Ideal S512x64 .f32 := iblk2 V c 1 t
abbrev blkN (c : Dev nD) (t : Fin cfg2.N) : Vec Ideal S512x64 .f32 := iblk2 V c 2 t

abbrev arrA (c : Dev nD) : Cert.Spec.SB64.Idx → EReal := V c main_v15
abbrev arrB (c : Dev nD) : Cert.Spec.SB64.Idx → EReal := V c main_v16
abbrev arrN (c : Dev nD) : Cert.Spec.SB64.Idx → EReal := V c main_v17

def bsum2 (c : Dev nD) (t : Fin cfg2.N) : EReal :=
  ∑ r : Fin 512, Cert.Spec.bprTerm (fun k => blkA V c t (ix2 r k)) (fun k => blkB V c t (ix2 r k)) (fun k => blkN V c t (ix2 r k))

def acc2 (c : Dev nD) : (n : ℕ) → n < cfg2.N → EReal
  | 0, hn => 0 + bsum2 V c ⟨0, hn⟩
  | n + 1, hn => acc2 c n (Nat.lt_of_succ_lt hn) + bsum2 V c ⟨n + 1, hn⟩

theorem scratch2_eq (c : Dev nD) : ∀ (n : ℕ) (hn : n < cfg2.N),
    (outsAt2 V c n hn).2 (ix2 (0 : Fin 1) (0 : Fin 1)) = acc2 V c n hn
  | 0, hn => by
    have h0 : (⟨0, hn⟩ : Fin cfg2.N).val % 8 = 0 := rfl
    have h1 : ¬(⟨0, hn⟩ : Fin cfg2.N).val % 8 = 7 := by show ¬(0 % 8 = 7); decide
    rw [outsAt2_A V c ⟨0, hn⟩ h0 h1]; dsimp only [outs2_A]
    refine (congrFun (sout2_A_0_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩)) (ix2 (0 : Fin 1) (0 : Fin 1))).trans ?_
    rw [k2_pay1_eq, k2_pay3_apply, k2_pay2_eq]
    rfl
  | n + 1, hn => by
    have ih := scratch2_eq c n (Nat.lt_of_succ_lt hn)
    have hN : n + 1 < 8 := lt_of_lt_of_eq hn (show cfg2.N = 8 from N_2)
    have h0 : ¬(⟨n + 1, hn⟩ : Fin cfg2.N).val % 8 = 0 := by show ¬(n + 1) % 8 = 0; omega
    by_cases h1 : (⟨n + 1, hn⟩ : Fin cfg2.N).val % 8 = 7
    · rw [outsAt2_C V c ⟨n + 1, hn⟩ h0 h1]; dsimp only [outs2_C]
      refine (congrFun (sout2_C_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 V c n (Nat.lt_of_succ_lt hn)).2) (ix2 (0 : Fin 1) (0 : Fin 1))).trans ?_
      rw [k2_pay1_eq, k2_pay3_apply, ih]
      rfl
    · rw [outsAt2_B V c ⟨n + 1, hn⟩ h0 h1]; dsimp only [outs2_B]
      refine (congrFun (sout2_B_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 V c n (Nat.lt_of_succ_lt hn)).2) (ix2 (0 : Fin 1) (0 : Fin 1))).trans ?_
      rw [k2_pay1_eq, k2_pay3_apply, ih]
      rfl

theorem out2_last (c : Dev nD) (t : Fin cfg2.N) (h1 : t.val % 8 = 7) :
    (outsAt2 V c t.val t.isLt).1 (ix2 (0 : Fin 1) (0 : Fin 1)) = acc2 V c t.val t.isLt := by
  have hN : t.val < 8 := lt_of_lt_of_eq t.isLt (show cfg2.N = 8 from N_2)
  have h0 : ¬t.val % 8 = 0 := by omega
  have e := scratch2_eq V c t.val t.isLt
  rw [outsAt2_C V c t h0 h1] at e ⊢; dsimp only [outs2_C] at e ⊢
  refine Eq.trans ?_ e
  refine (congrFun (out2_C_3_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 (0 : Fin 1) (0 : Fin 1))).trans ?_
  exact (congrFun (sout2_C_0_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 (0 : Fin 1) (0 : Fin 1))).symm

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem blkA_read (c : Dev nD) (t : Fin cfg2.N) (r : Fin 512) (k : Fin 64) (R : Fin 4096) (hR : R.val = 512 * t.val + r.val) :
    blkA V c t (ix2 r k) = arrA V c (ix2 R k) := by
  show V c main_v15 (((cfg2.win 0).blk t).view.emb (ix2 r k)) = V c main_v15 (ix2 R k)
  refine congrArg (V c main_v15) ?_
  obtain ⟨e0, e1, e2, e3, e4, e5⟩ := idx_facts2 t
  funext a; apply Fin.ext
  match a with
  | ⟨0, _⟩ => show win2_0.index t (0 : Fin 2) * 512 + 1 * r.val = R.val; omega
  | ⟨1, _⟩ => show win2_0.index t (1 : Fin 2) * 64 + 1 * k.val = k.val; omega

theorem blkB_read (c : Dev nD) (t : Fin cfg2.N) (r : Fin 512) (k : Fin 64) (R : Fin 4096) (hR : R.val = 512 * t.val + r.val) :
    blkB V c t (ix2 r k) = arrB V c (ix2 R k) := by
  show V c main_v16 (((cfg2.win 1).blk t).view.emb (ix2 r k)) = V c main_v16 (ix2 R k)
  refine congrArg (V c main_v16) ?_
  obtain ⟨e0, e1, e2, e3, e4, e5⟩ := idx_facts2 t
  funext a; apply Fin.ext
  match a with
  | ⟨0, _⟩ => show win2_1.index t (0 : Fin 2) * 512 + 1 * r.val = R.val; omega
  | ⟨1, _⟩ => show win2_1.index t (1 : Fin 2) * 64 + 1 * k.val = k.val; omega

theorem blkN_read (c : Dev nD) (t : Fin cfg2.N) (r : Fin 512) (k : Fin 64) (R : Fin 4096) (hR : R.val = 512 * t.val + r.val) :
    blkN V c t (ix2 r k) = arrN V c (ix2 R k) := by
  show V c main_v17 (((cfg2.win 2).blk t).view.emb (ix2 r k)) = V c main_v17 (ix2 R k)
  refine congrArg (V c main_v17) ?_
  obtain ⟨e0, e1, e2, e3, e4, e5⟩ := idx_facts2 t
  funext a; apply Fin.ext
  match a with
  | ⟨0, _⟩ => show win2_2.index t (0 : Fin 2) * 512 + 1 * r.val = R.val; omega
  | ⟨1, _⟩ => show win2_2.index t (1 : Fin 2) * 64 + 1 * k.val = k.val; omega

def term2 (c : Dev nD) (R : ℕ) : EReal :=
  if h : R < 4096 then
    Cert.Spec.bprTerm (fun k => arrA V c (ix2 (⟨R, h⟩ : Fin 4096) k)) (fun k => arrB V c (ix2 (⟨R, h⟩ : Fin 4096) k)) (fun k => arrN V c (ix2 (⟨R, h⟩ : Fin 4096) k))
  else 0

theorem bsum2_eq (c : Dev nD) (t : Fin cfg2.N) : bsum2 V c t = ∑ r : Fin 512, term2 V c (512 * t.val + r.val) := by
  have hN : t.val < 8 := lt_of_lt_of_eq t.isLt (show cfg2.N = 8 from N_2)
  unfold bsum2
  refine Finset.sum_congr rfl fun r _ => ?_
  have hR : 512 * t.val + r.val < 4096 := by have := r.isLt; omega
  have eA : (fun k => blkA V c t (ix2 r k)) = fun k => arrA V c (ix2 (⟨512 * t.val + r.val, hR⟩ : Fin 4096) k) :=
    funext fun k => blkA_read V c t r k ⟨512 * t.val + r.val, hR⟩ rfl
  have eB : (fun k => blkB V c t (ix2 r k)) = fun k => arrB V c (ix2 (⟨512 * t.val + r.val, hR⟩ : Fin 4096) k) :=
    funext fun k => blkB_read V c t r k ⟨512 * t.val + r.val, hR⟩ rfl
  have eN : (fun k => blkN V c t (ix2 r k)) = fun k => arrN V c (ix2 (⟨512 * t.val + r.val, hR⟩ : Fin 4096) k) :=
    funext fun k => blkN_read V c t r k ⟨512 * t.val + r.val, hR⟩ rfl
  rw [eA, eB, eN]
  unfold term2; rw [dif_pos hR]

theorem acc2_eq_range (c : Dev nD) : ∀ (n : ℕ) (hn : n < cfg2.N),
    acc2 V c n hn = ∑ j ∈ Finset.range (n + 1), ∑ r : Fin 512, term2 V c (512 * j + r.val)
  | 0, hn => by
    rw [Finset.sum_range_one]
    show 0 + bsum2 V c ⟨0, hn⟩ = _
    rw [zero_add, bsum2_eq]
  | n + 1, hn => by
    rw [Finset.sum_range_succ, ← acc2_eq_range c n (Nat.lt_of_succ_lt hn)]
    show acc2 V c n (Nat.lt_of_succ_lt hn) + bsum2 V c ⟨n + 1, hn⟩ = _
    rw [bsum2_eq]

theorem acc2_last (c : Dev nD) (h7 : 7 < cfg2.N) :
    acc2 V c 7 h7 = Cert.Spec.bpr (arrA V c) (arrB V c) (arrN V c) := by
  have e : Cert.Spec.bpr (arrA V c) (arrB V c) (arrN V c) = ∑ R : Fin 4096, term2 V c R.val := by
    unfold Cert.Spec.bpr
    refine Finset.sum_congr rfl fun R _ => ?_
    unfold term2; rw [dif_pos R.isLt]
  rw [e, ← Cert.SumBlocks.sum_blocks_8_512 (term2 V c), acc2_eq_range V c 7 h7]
  exact (Fin.sum_univ_eq_sum_range (fun j => ∑ r : Fin 512, term2 V c (512 * j + r.val)) 8).symm

theorem idx11_eq (z : S1x1.Idx) : z = ix2 (0 : Fin 1) (0 : Fin 1) := by
  funext a; apply Fin.ext
  have h := (z a).isLt
  match a with
  | ⟨0, _⟩ => show (z 0).val = 0; have : (z 0).val < 1 := (z 0).isLt; omega
  | ⟨1, _⟩ => show (z 1).val = 0; have : (z 1).val < 1 := (z 1).isLt; omega

theorem final2 (c : Dev nD) :
    (dat2 (F := Ideal) V c).arrAt 3 cfg2.N (ix2 (0 : Fin 1) (0 : Fin 1)) = Cert.Spec.bpr (V c main_v15) (V c main_v16) (V c main_v17) := by
  have h7 : 7 < cfg2.N := lt_of_lt_of_eq (by decide : 7 < 8) (show cfg2.N = 8 from N_2).symm
  refine ((dat2 (F := Ideal) V c).arrAt_forall_of_cover 3 (fun _ v => v = acc2 V c 7 h7) ?hP ?hcover (ix2 (0 : Fin 1) (0 : Fin 1))).trans (acc2_last V c h7)
  case hP =>
    intro t hf y
    have ht : t.val % 8 = 7 := (flush2_3 t).mp hf
    have hN : t.val < 8 := lt_of_lt_of_eq t.isLt (show cfg2.N = 8 from N_2)
    have htv : t = ⟨7, h7⟩ := Fin.ext (by show t.val = 7; omega)
    have e := out2_last V c t ht
    rw [← after2_3 V c t] at e
    show (dat2 (F := Ideal) V c).after 3 t ((cfg2.win 3).xinj (cfg2.grid.coords t) y) = acc2 V c 7 h7
    rw [idx11_eq ((cfg2.win 3).xinj (cfg2.grid.coords t) y), e]
    subst htv; rfl
  case hcover =>
    intro i
    refine ⟨⟨7, h7⟩, (flush2_3 ⟨7, h7⟩).mpr rfl, ?_⟩
    show i ∈ ((View.whole main_v18).slice (win2_3.rect ⟨7, h7⟩)).set
    rw [View.set_slice_whole, Rect.mem_set_unit]
    intro a
    have := (i a).isLt
    match a with
    | ⟨0, _⟩ => exact ⟨Nat.zero_le _, (i 0).isLt⟩
    | ⟨1, _⟩ => exact ⟨Nat.zero_le _, (i 1).isLt⟩

end Cert.KernelIdeal.Hand

end
-- ==== Proof.KVal.lean ====
import proofs.«420464_j10849087390119_2_alg».proof.Proof.KFold
import proofs.«420464_j10849087390119_2_alg».proof.Proof.Val0
import proofs.«420464_j10849087390119_2_alg».proof.Proof.Val1
import proofs.«420464_j10849087390119_2_alg».proof.Proof.Val2
import proofs.«420464_j10849087390119_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

def xwArr (a0 : Vec Ideal S100000x256 .f32) (a1 : Vec Ideal S256x64 .f32) : Vec Ideal S100000x64 .f32 :=
  fun i => Cert.Spec.xw a0 a1 (i 0) (i 1)

def embArr (h : Vec Ideal S100000x64 .f32) : Vec Ideal S100000x64 .f32 :=
  fun i => Cert.Spec.emb h (i 0) (i 1)

def hArr (a0 : Vec Ideal S100000x256 .f32) (a1 : Vec Ideal S256x64 .f32) (a2 a3 : IVec S3200000 32) (a4 : Vec Ideal S3200000 .f32) :
    Vec Ideal S100000x64 .f32 :=
  chainK (F := Ideal) (xwArr a0 a1) a2 a3 a4

def kLoss (a0 : Vec Ideal S100000x256 .f32) (a1 : Vec Ideal S256x64 .f32) (a2 a3 : IVec S3200000 32) (a4 : Vec Ideal S3200000 .f32)
    (a5 a6 a7 : IVec S4096 32) : Vec Ideal S_ .f32 :=
  fun _ => Cert.Spec.loss
    (Cert.Spec.bpr (gatherK (F := Ideal) (embArr (hArr a0 a1 a2 a3 a4)) a5) (gatherK (F := Ideal) (embArr (hArr a0 a1 a2 a3 a4)) a6)
      (gatherK (F := Ideal) (embArr (hArr a0 a1 a2 a3 a4)) a7))
    (Cert.Spec.sumsq (hArr a0 a1 a2 a3 a4))

variable (m : (ℓ : Loc nD τ sig) → Buf (Elt Ideal) ℓ)

theorem xw_eq (c : Dev nD) : W1 m c (Proc.devRef .tc main_v0)
    = xwArr (m ((c : Thread nD τ).loc main_arg0)) (m ((c : Thread nD τ).loc main_arg1)) :=
  (W1_v0 m c).trans (arr0_2_eq (V0 m) c)

theorem h_eq (c : Dev nD) : W2 m c (Proc.devRef .tc main_v13)
    = hArr (m ((c : Thread nD τ).loc main_arg0)) (m ((c : Thread nD τ).loc main_arg1)) (m ((c : Thread nD τ).loc main_arg2))
        (m ((c : Thread nD τ).loc main_arg3)) (m ((c : Thread nD τ).loc main_arg4)) := by
  rw [W2_v13 m c, xw_eq m c]; rfl

theorem emb_eq (c : Dev nD) : W3 m c (Proc.devRef .tc main_v14_0)
    = embArr (hArr (m ((c : Thread nD τ).loc main_arg0)) (m ((c : Thread nD τ).loc main_arg1)) (m ((c : Thread nD τ).loc main_arg2))
        (m ((c : Thread nD τ).loc main_arg3)) (m ((c : Thread nD τ).loc main_arg4))) := by
  rw [W3_v14_0 m c, ← h_eq m c]
  funext i
  obtain ⟨r, k, rfl⟩ : ∃ (r : Fin 100000) (k : Fin 64), i = ix2 r k := ⟨i 0, i 1, eq_ix2 i⟩
  exact final1_emb (V2 m) c r k

theorem sumsq_eq (c : Dev nD) : (dat1 (F := Ideal) (V2 m) c).arrAt 2 cfg1.N (ix2 (0 : Fin 1) (0 : Fin 1))
    = Cert.Spec.sumsq (hArr (m ((c : Thread nD τ).loc main_arg0)) (m ((c : Thread nD τ).loc main_arg1)) (m ((c : Thread nD τ).loc main_arg2))
        (m ((c : Thread nD τ).loc main_arg3)) (m ((c : Thread nD τ).loc main_arg4))) := by
  rw [final1_sumsq (V2 m) c, ← h_eq m c]

theorem o1_eq (c : Dev nD) (h5 : ∀ j : Fin 4096, -100000 ≤ ((m ((c : Thread nD τ).loc main_arg5) : IVec S4096 32) (ix1 j)).toInt ∧ ((m ((c : Thread nD τ).loc main_arg5) : IVec S4096 32) (ix1 j)).toInt < 100000) :
    W6 m c (Proc.devRef .tc main_v15)
      = gatherK (F := Ideal) (embArr (hArr (m ((c : Thread nD τ).loc main_arg0)) (m ((c : Thread nD τ).loc main_arg1)) (m ((c : Thread nD τ).loc main_arg2))
        (m ((c : Thread nD τ).loc main_arg3)) (m ((c : Thread nD τ).loc main_arg4)))) (m ((c : Thread nD τ).loc main_arg5)) := by
  rw [W6_v15 m c, emb_eq m c]
  exact takeK_eq_gatherK _ _ h5
theorem o2_eq (c : Dev nD) (h6 : ∀ j : Fin 4096, -100000 ≤ ((m ((c : Thread nD τ).loc main_arg6) : IVec S4096 32) (ix1 j)).toInt ∧ ((m ((c : Thread nD τ).loc main_arg6) : IVec S4096 32) (ix1 j)).toInt < 100000) :
    W6 m c (Proc.devRef .tc main_v16)
      = gatherK (F := Ideal) (embArr (hArr (m ((c : Thread nD τ).loc main_arg0)) (m ((c : Thread nD τ).loc main_arg1)) (m ((c : Thread nD τ).loc main_arg2))
        (m ((c : Thread nD τ).loc main_arg3)) (m ((c : Thread nD τ).loc main_arg4)))) (m ((c : Thread nD τ).loc main_arg6)) := by
  rw [W6_v16 m c, emb_eq m c]
  exact takeK_eq_gatherK _ _ h6
theorem on_eq (c : Dev nD) (h7 : ∀ j : Fin 4096, -100000 ≤ ((m ((c : Thread nD τ).loc main_arg7) : IVec S4096 32) (ix1 j)).toInt ∧ ((m ((c : Thread nD τ).loc main_arg7) : IVec S4096 32) (ix1 j)).toInt < 100000) :
    W6 m c (Proc.devRef .tc main_v17)
      = gatherK (F := Ideal) (embArr (hArr (m ((c : Thread nD τ).loc main_arg0)) (m ((c : Thread nD τ).loc main_arg1)) (m ((c : Thread nD τ).loc main_arg2))
        (m ((c : Thread nD τ).loc main_arg3)) (m ((c : Thread nD τ).loc main_arg4)))) (m ((c : Thread nD τ).loc main_arg7)) := by
  rw [W6_v17 m c, emb_eq m c]
  exact takeK_eq_gatherK _ _ h7

theorem kval (c : Dev nD)
    (h5 : ∀ j : Fin 4096, -100000 ≤ ((m ((c : Thread nD τ).loc main_arg5) : IVec S4096 32) (ix1 j)).toInt ∧ ((m ((c : Thread nD τ).loc main_arg5) : IVec S4096 32) (ix1 j)).toInt < 100000)
    (h6 : ∀ j : Fin 4096, -100000 ≤ ((m ((c : Thread nD τ).loc main_arg6) : IVec S4096 32) (ix1 j)).toInt ∧ ((m ((c : Thread nD τ).loc main_arg6) : IVec S4096 32) (ix1 j)).toInt < 100000)
    (h7 : ∀ j : Fin 4096, -100000 ≤ ((m ((c : Thread nD τ).loc main_arg7) : IVec S4096 32) (ix1 j)).toInt ∧ ((m ((c : Thread nD τ).loc main_arg7) : IVec S4096 32) (ix1 j)).toInt < 100000) :
    W8 m c (Proc.devRef .tc main_v23)
      = kLoss (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [W8_v23 m c, lossK_eq, sumsq_eq m c, final2 (V6 m) c]
  show (fun _ => Cert.Spec.loss (Cert.Spec.bpr (W6 m c (Proc.devRef .tc main_v15)) (W6 m c (Proc.devRef .tc main_v16)) (W6 m c (Proc.devRef .tc main_v17))) _) = _
  rw [o1_eq m c h5, o2_eq m c h6, on_eq m c h7]
  rfl

end Cert.KernelIdeal.Hand

end
-- ==== Proof.RefRead.lean ====
import proofs.«420464_j10849087390119_2_alg».proof.Proof.RefTerm
import proofs.«420464_j10849087390119_2_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value

noncomputable section

namespace Cert.ReferenceIdeal.Hand

open Cert.ReferenceIdeal Idealize.ShloMosaic Idealize.ShloMosaic.ValueIdx

variable [Facts]
open Facts₀ Facts

section HostAt
variable {s : Shape} {φ : FTy}
theorem hostTanh_apply (x : FVec Ideal s φ) (i : s.Idx) : Host.tanh x i = Ideal.tanh (x i) := rfl
theorem hostRsqrt_apply (x : FVec Ideal s φ) (i : s.Idx) : Host.rsqrt x i = Ideal.rsqrt (x i) := rfl
theorem hostExp_apply (x : FVec Ideal s φ) (i : s.Idx) : Host.exp x i = Ideal.exp (x i) := rfl
theorem hostLog1p_apply (x : FVec Ideal s φ) (i : s.Idx) : Host.log1p x i = Ideal.log1p (x i) := rfl
theorem hostNegf_apply (x : FVec Ideal s φ) (i : s.Idx) : Host.negf x i = -(x i) := rfl
theorem hostAbsf_apply (x : FVec Ideal s φ) (i : s.Idx) : Host.absf x i = max (x i) (-(x i)) := rfl
end HostAt

theorem cmp_une_self (v : EReal) : Ideal.cmp .une v v = 0#1 := by
  unfold Ideal.cmp
  simp

theorem bcastScalar_apply {T : Shape} {α : Type} (h : S_.BroadcastsInDim T ![]) (x : S_.Idx → α) (j : T.Idx) :
    broadcastInDim T ![] h x j = x ix0 := by
  unfold broadcastInDim
  exact congrArg x (funext fun a => a.elim0)

theorem bcastToCol_apply {α : Type} (x : S100000.Idx → α) (r : Fin 100000) (c : Fin 1) :
    broadcastInDim S100000x1 ![0] bcast_S100000_S100000x1_0 x (ix2 r c) = x (ix1 r) := by
  refine broadcastInDim_apply ![0] bcast_S100000_S100000x1_0 x (ix2 r c) (ix1 r) ?_
  intro a
  match a with
  | ⟨0, _⟩ =>
    show r.val = if (100000 : ℕ) = 1 then 0 else r.val
    rw [if_neg (by decide)]

theorem bcastCol_apply {α : Type} (y : S100000x1.Idx → α) (r : Fin 100000) (k : Fin 64) :
    broadcastInDim S100000x64 ![0, 1] bcast_S100000x1_S100000x64_0_1 y (ix2 r k) = y (ix2 r (0 : Fin 1)) := by
  refine broadcastInDim_apply ![0, 1] bcast_S100000x1_S100000x64_0_1 y (ix2 r k) (ix2 r (0 : Fin 1)) ?_
  intro a
  match a with
  | ⟨0, _⟩ =>
    show r.val = if (100000 : ℕ) = 1 then 0 else r.val
    rw [if_neg (by decide)]
  | ⟨1, _⟩ =>
    show (0 : ℕ) = if (1 : ℕ) = 1 then 0 else k.val
    rw [if_pos rfl]

theorem rowSum_apply (x : S100000x64.Idx → EReal) (init : S_.Idx → EReal) (r : Fin 100000) :
    Host.reduceAdd (F := Ideal) (φ := .f32) x init reducesTo_S100000x64_S100000_d1 h_S_ (ix1 r)
      = init ix0 + ∑ k : Fin 64, x (ix2 r k) := by
  show Ideal.hostReduceAdd reducesTo_S100000x64_S100000_d1 x (init (Shape.Idx.first h_S_)) (ix1 r) = _
  rw [Ideal.hostReduceAdd_single reducesTo_S100000x64_S100000_d1 (by decide : S100000x64.Reduces [1] S100000)]
  refine congr (congrArg _ (congrArg init (funext fun a => a.elim0))) ?_
  exact Finset.sum_congr rfl fun k _ => congrArg x (funext fun c => Fin.ext (by
    match c with
    | ⟨0, _⟩ => rfl
    | ⟨1, _⟩ => rfl))

theorem rowSumB_apply (x : S4096x64.Idx → EReal) (init : S_.Idx → EReal) (r : Fin 4096) :
    Host.reduceAdd (F := Ideal) (φ := .f32) x init reducesTo_S4096x64_S4096_d1 h_S_ (ix1 r)
      = init ix0 + ∑ k : Fin 64, x (ix2 r k) := by
  show Ideal.hostReduceAdd reducesTo_S4096x64_S4096_d1 x (init (Shape.Idx.first h_S_)) (ix1 r) = _
  rw [Ideal.hostReduceAdd_single reducesTo_S4096x64_S4096_d1 (by decide : S4096x64.Reduces [1] S4096)]
  refine congr (congrArg _ (congrArg init (funext fun a => a.elim0))) ?_
  exact Finset.sum_congr rfl fun k _ => congrArg x (funext fun c => Fin.ext (by
    match c with
    | ⟨0, _⟩ => rfl
    | ⟨1, _⟩ => rfl))

theorem totalSum_apply (x : S100000x64.Idx → EReal) (init : S_.Idx → EReal) (j : S_.Idx) :
    Host.reduceAdd (F := Ideal) (φ := .f32) x init reducesTo_S100000x64_S_d0_1 h_S_ j
      = init ix0 + ∑ r : Fin 100000, ∑ k : Fin 64, x (ix2 r k) := by
  show Ideal.hostReduceAdd reducesTo_S100000x64_S_d0_1 x (init (Shape.Idx.first h_S_)) j = _
  rw [Ideal.hostReduceAdd_total reducesTo_S100000x64_S_d0_1 (fun b => b.elim0), sum_idx2]
  exact congrArg (· + _) (congrArg init (funext fun a => a.elim0))

theorem totalSumB_apply (x : S4096.Idx → EReal) (init : S_.Idx → EReal) (j : S_.Idx) :
    Host.reduceAdd (F := Ideal) (φ := .f32) x init reducesTo_S4096_S_d0 h_S_ j
      = init ix0 + ∑ r : Fin 4096, x (ix1 r) := by
  show Ideal.hostReduceAdd reducesTo_S4096_S_d0 x (init (Shape.Idx.first h_S_)) j = _
  rw [Ideal.hostReduceAdd_total reducesTo_S4096_S_d0 (fun b => b.elim0),
    ← Equiv.sum_comp (idxEquiv1 (n := 4096)).symm x]
  exact congrArg (· + _) (congrArg init (funext fun a => a.elim0))

theorem lhs_xw_0 (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch from List.not_mem_nil),
    dif_pos (show (0 : Fin S100000x256.rank) ∈ dot_S100000x256_S256x64_S100000x64_1_0_0_1_n_n.lhsNonContracting from List.mem_singleton.mpr rfl)]
  rfl

theorem lhs_xw_1 (i : S100000x64.Idx) (q : dot_S100000x256_S256x64_S100000x64_1_0_0_1_n_n.contr.Idx) :
    (dot_S100000x256_S256x64_S100000x64_1_0_0_1_n_n.lhsIdx i q 1).val = (q ⟨0, Nat.one_pos⟩).val :=
  dot_S100000x256_S256x64_S100000x64_1_0_0_1_n_n.lhsIdx_val_of_single rfl i q

theorem rhs_xw_0 (i : S100000x64.Idx) (q : dot_S100000x256_S256x64_S100000x64_1_0_0_1_n_n.contr.Idx) :
    (dot_S100000x256_S256x64_S100000x64_1_0_0_1_n_n.rhsIdx i q 0).val = (q ⟨0, Nat.one_pos⟩).val :=
  dot_S100000x256_S256x64_S100000x64_1_0_0_1_n_n.rhsIdx_val_of_single rfl i q

theorem rhs_xw_1 (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch from List.not_mem_nil),
    dif_pos (show (1 : Fin S256x64.rank) ∈ dot_S100000x256_S256x64_S100000x64_1_0_0_1_n_n.rhsNonContracting from List.mem_singleton.mpr rfl)]
  rfl

theorem refXw_apply (a0 : (⟨S100000x256, .f32⟩ : BufTy).Contents (Elt Ideal))
    (a1 : (⟨S256x64, .f32⟩ : BufTy).Contents (Elt Ideal)) (r : Fin 100000) (k : Fin 64) :
    refXw (F := Ideal) a0 a1 (ix2 r k) = Cert.Spec.xw a0 a1 r k := by
  unfold refXw Cert.Spec.xw
  show FloatOps.dotGeneral (F := Ideal) (φ₁ := .f32) (φ₂ := .f32) dot_S100000x256_S256x64_S100000x64_1_0_0_1_n_n none _ a0 a1 (ix2 r k) = _
  rw [Ideal.dotGeneral_apply,
    ← Equiv.sum_comp (contrEquiv1 dot_S100000x256_S256x64_S100000x64_1_0_0_1_n_n 256 rfl rfl).symm]
  refine Finset.sum_congr rfl fun c _ => ?_
  have hc := contrEquiv1_symm_val dot_S100000x256_S256x64_S100000x64_1_0_0_1_n_n 256 rfl rfl c
  have el : dot_S100000x256_S256x64_S100000x64_1_0_0_1_n_n.lhsIdx (ix2 r k)
      ((contrEquiv1 dot_S100000x256_S256x64_S100000x64_1_0_0_1_n_n 256 rfl rfl).symm c) = ix2 r c :=
    funext fun a => Fin.ext (by
      match a with
      | ⟨0, _⟩ => exact lhs_xw_0 _ _
      | ⟨1, _⟩ => exact (lhs_xw_1 _ _).trans hc)
  have er : dot_S100000x256_S256x64_S100000x64_1_0_0_1_n_n.rhsIdx (ix2 r k)
      ((contrEquiv1 dot_S100000x256_S256x64_S100000x64_1_0_0_1_n_n 256 rfl rfl).symm c) = ix2 c k :=
    funext fun a => Fin.ext (by
      match a with
      | ⟨0, _⟩ => exact (rhs_xw_0 _ _).trans hc
      | ⟨1, _⟩ => exact rhs_xw_1 _ _)
  rw [el, er]

theorem refEmb_apply (h : (⟨S100000x64, .f32⟩ : BufTy).Contents (Elt Ideal)) (r : Fin 100000) (k : Fin 64) :
    refEmb (F := Ideal) h (ix2 r k) = Cert.Spec.emb h r k := by
  unfold refEmb Cert.Spec.emb Cert.Spec.embRow Cert.Spec.eps
  rw [mulf_apply, bcastCol_apply, hostRsqrt_apply, maximumf_apply, bcastToCol_apply, bcastScalar_apply, rowSum_apply,
    constant_apply, constant_apply, Ideal.ofBits_zero_f32, zero_add, hostTanh_apply]
  simp only [mulf_apply, hostTanh_apply]

theorem refSumsq_eq (h : (⟨S100000x64, .f32⟩ : BufTy).Contents (Elt Ideal)) :
    refSumsq (F := Ideal) (refEmb (F := Ideal) h) = fun _ => Cert.Spec.sumsq h := by
  funext j
  unfold refSumsq Cert.Spec.sumsq
  rw [totalSum_apply, constant_apply, Ideal.ofBits_zero_f32, zero_add]
  refine Finset.sum_congr rfl fun r _ => Finset.sum_congr rfl fun k _ => ?_
  rw [mulf_apply, refEmb_apply]

theorem refBpr_eq (o1 o2 on : (⟨S4096x64, .f32⟩ : BufTy).Contents (Elt Ideal)) :
    refBpr (F := Ideal) o1 o2 on = fun _ => Cert.Spec.bpr o1 o2 on := by
  funext j
  unfold refBpr Cert.Spec.bpr Cert.Spec.bprTerm Cert.Spec.softplus
  rw [totalSumB_apply, constant_apply, Ideal.ofBits_zero_f32, zero_add]
  refine Finset.sum_congr rfl fun r _ => ?_
  simp only [hostNegf_apply, select_apply, cmpf_apply, Ideal.cmpf_def, cmp_une_self, select_zero, neg_neg, addf_apply,
    maximumf_apply, hostLog1p_apply, hostExp_apply, hostAbsf_apply, subf_apply, bcastScalar_apply, rowSumB_apply,
    constant_apply, Ideal.ofBits_zero_f32, zero_add, sub_zero, mulf_apply]
  rw [bcastScalar_apply]
  simp only [constant_apply, Ideal.ofBits_zero_f32, sub_zero, neg_neg]

theorem refLossOf_eq (b s : EReal) :
    refLossOf (F := Ideal) (fun _ => b) (fun _ => s) = fun _ => Cert.Spec.loss b s := rfl

end Cert.ReferenceIdeal.Hand

end
-- ==== Proof.Bridge0.lean ====
import proofs.«420464_j10849087390119_2_alg».proof.Proof.HostK
import proofs.«420464_j10849087390119_2_alg».proof.Proof.RefTerm

noncomputable section

namespace Cert.Bridge

open Idealize.ShloMosaic

variable {F : FTy → Type} [FloatOps F] [Cert.KernelIdeal.Facts] [Cert.ReferenceIdeal.Facts]

theorem gatherE_eq : Cert.KernelIdeal.gather_S100000x64_S3200000x1_S3200000x64_1_0_n_n_0_1_164
    = Cert.ReferenceIdeal.gather_S100000x64_S3200000x1_S3200000x64_1_0_n_n_0_1_164 := rfl

theorem scatterE_eq : Cert.KernelIdeal.scatter_S100000x64_S3200000x1_S3200000x64_1_0_0_1
    = Cert.ReferenceIdeal.scatter_S100000x64_S3200000x1_S3200000x64_1_0_0_1 := rfl

theorem gatherB_eq : Cert.KernelIdeal.gather_S100000x64_S4096x1_S4096x64_1_0_n_n_0_1_164
    = Cert.ReferenceIdeal.gather_S100000x64_S4096x1_S4096x64_1_0_n_n_0_1_164 := rfl

theorem wrapE_eq (a3 : IVec Cert.KernelIdeal.S3200000 32) :
    Cert.KernelIdeal.Hand.wrapE a3 = Cert.ReferenceIdeal.Hand.refWrapE (F := F) a3 := rfl

theorem wrapB_eq (idx : IVec Cert.KernelIdeal.S4096 32) :
    Cert.KernelIdeal.Hand.wrapB idx = Cert.ReferenceIdeal.Hand.refWrapB (F := F) idx := rfl

theorem chain_eq (x : Vec F Cert.KernelIdeal.S100000x64 .f32) (a2 a3 : IVec Cert.KernelIdeal.S3200000 32)
    (a4 : Vec F Cert.KernelIdeal.S3200000 .f32) :
    Cert.KernelIdeal.Hand.chainK (F := F) x a2 a3 a4 = Cert.ReferenceIdeal.Hand.refH (F := F) x a2 a3 a4 := by
  unfold Cert.KernelIdeal.Hand.chainK Cert.ReferenceIdeal.Hand.refH
  rw [wrapE_eq (F := F), gatherE_eq, scatterE_eq]

theorem gather_eq (e : Vec F Cert.KernelIdeal.S100000x64 .f32) (idx : IVec Cert.KernelIdeal.S4096 32) :
    Cert.KernelIdeal.Hand.gatherK (F := F) e idx = Cert.ReferenceIdeal.Hand.refTake (F := F) e idx := by
  unfold Cert.KernelIdeal.Hand.gatherK Cert.ReferenceIdeal.Hand.refTake
  rw [wrapB_eq (F := F), gatherB_eq]

end Cert.Bridge

end
-- ==== Proof.PreIdx.lean ====
import proofs.«420464_j10849087390119_2_alg».proof.Defs
import proofs.«420464_j10849087390119_2_alg».proof.Proof.Gen.Pre_finite_inputs
import Idealize.ShloMosaic.Lib.ReduceAll
import Idealize.ShloMosaic.Lib.StableHlo.Predicate
import Idealize.ShloMosaic.Lib.ValueIdx

noncomputable section

namespace Cert.PreIdx

open Idealize.ShloMosaic
open Cert.Pre_finite_inputs (S4096 S_)

def InRange (idx : IVec Cert.Pre_finite_inputs.S4096 32) : Prop :=
  ∀ j : Fin 4096, -100000 ≤ (idx (ValueIdx.ix1 j)).toInt ∧ (idx (ValueIdx.ix1 j)).toInt < 100000

instance subsingleton_scalar_idx : Subsingleton S_.Idx := ⟨fun _ _ => funext fun d => d.elim0⟩

theorem lo_toInt : (4294867296#32 : BitVec 32).toInt = -100000 := by decide

theorem hi_toInt : (100000#32 : BitVec 32).toInt = 100000 := by decide

theorem elem_of_mask (hb : S_.BroadcastsInDim S4096 (![] : Fin 0 → Fin S4096.rank)) (idx : IVec S4096 32) (i : S4096.Idx)
    (e : andi (cmpi .sge idx (broadcastInDim S4096 ![] hb (constantI S_ 32 4294867296#32)))
          (cmpi .slt idx (broadcastInDim S4096 ![] hb (constantI S_ 32 100000#32))) i = 1#1) :
    -100000 ≤ (idx i).toInt ∧ (idx i).toInt < 100000 := by
  have e' : IntOp.andi (IntOp.cmpi .sge (idx i) 4294867296#32) (IntOp.cmpi .slt (idx i) 100000#32) = 1#1 := e
  obtain ⟨h1, h2⟩ := IntOp.andi_eq_one.1 e'
  have h1' := IntOp.cmpi_sge.1 h1
  have h2' := IntOp.cmpi_slt.1 h2
  rw [lo_toInt] at h1'
  rw [hi_toInt] at h2'
  exact ⟨h1', h2'⟩

theorem inRange_of_all [Cert.Pre_finite_inputs.Facts] (idx : IVec S4096 32) (init : IVec S_ 1)
    (e : Host.reduce IntOp.andi
          (andi (cmpi .sge idx (broadcastInDim S4096 ![] Cert.Pre_finite_inputs.Facts.bcast_S_S4096 (constantI S_ 32 4294867296#32)))
            (cmpi .slt idx (broadcastInDim S4096 ![] Cert.Pre_finite_inputs.Facts.bcast_S_S4096 (constantI S_ 32 100000#32))))
          init Cert.Pre_finite_inputs.Facts.reducesTo_S4096_S_d0 Cert.Pre_finite_inputs.Facts.h_S_ ValueIdx.ix0 = 1#1) :
    InRange idx := fun j =>
  elem_of_mask _ idx (ValueIdx.ix1 j) (Host.reduce_andi_all _ _ _ _ _ e (ValueIdx.ix1 j))

theorem idx_of_fn {F : FTy → Type} [FloatOps F] [Cert.Pre_finite_inputs.Facts]
    (a0 : FVec F Cert.Pre_finite_inputs.S100000x256 .f32) (a1 : FVec F Cert.Pre_finite_inputs.S256x64 .f32)
    (a2 : IVec Cert.Pre_finite_inputs.S3200000 32) (a3 : IVec Cert.Pre_finite_inputs.S3200000 32)
    (a4 : FVec F Cert.Pre_finite_inputs.S3200000 .f32)
    (a5 : IVec S4096 32) (a6 : IVec S4096 32) (a7 : IVec S4096 32)
    (h : Cert.Pre_finite_inputs.fn (F := F) a0 a1 a2 a3 a4 a5 a6 a7 = fun _ => 1#1) :
    InRange a5 ∧ InRange a6 ∧ InRange a7 := by
  have h0 := congrFun h ValueIdx.ix0
  dsimp only [Cert.Pre_finite_inputs.fn, Cert.Pre_finite_inputs.fn_part1, Cert.Pre_finite_inputs.fn_part2] at h0
  obtain ⟨h27, h33⟩ := IntOp.andi_eq_one.1 h0
  obtain ⟨h20, h26⟩ := IntOp.andi_eq_one.1 h27
  obtain ⟨-, h19⟩ := IntOp.andi_eq_one.1 h20
  exact ⟨inRange_of_all a5 _ h19, inRange_of_all a6 _ h26, inRange_of_all a7 _ h33⟩

theorem idx_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg5))
      ∧ InRange (m ((c.tc : Thread Cert.KernelIdeal.nD Cert.KernelIdeal.τ).loc Cert.KernelIdeal.main_arg6))
      ∧ InRange (m ((c.tc : Thread Cert.KernelIdeal.nD Cert.KernelIdeal.τ).loc Cert.KernelIdeal.main_arg7)) :=
  idx_of_fn (F := Ideal) _ _ _ _ _ _ _ _ (h c)

end Cert.PreIdx

end
-- ==== Proof.Bridge.lean ====
import proofs.«420464_j10849087390119_2_alg».proof.Defs
import proofs.«420464_j10849087390119_2_alg».proof.Proof.KVal
import proofs.«420464_j10849087390119_2_alg».proof.Proof.RefRun
import proofs.«420464_j10849087390119_2_alg».proof.Proof.RefRead
import proofs.«420464_j10849087390119_2_alg».proof.Proof.Bridge0
import proofs.«420464_j10849087390119_2_alg».proof.Proof.PreIdx
import proofs.«420464_j10849087390119_2_alg».proof.Proof.Gen.ReferenceIdeal
import proofs.«420464_j10849087390119_2_alg».proof.Proof.Gen.KernelIdeal
import proofs.«420464_j10849087390119_2_alg».proof.Proof.Gen.Pre_finite_inputs

set_option maxRecDepth 16384

noncomputable section

namespace Cert.Bridge

open Idealize.ShloMosaic Idealize.ShloMosaic.TcCoe Idealize.ShloMosaic.ValueIdx
open Idealize.SL Idealize.SL.Sem
open Cert.KernelIdeal.Hand Cert.ReferenceIdeal.Hand

theorem refXw_eq (a0 : Vec Ideal Cert.KernelIdeal.S100000x256 .f32) (a1 : Vec Ideal Cert.KernelIdeal.S256x64 .f32) :
    refXw (F := Ideal) a0 a1 = xwArr a0 a1 := by
  funext i
  obtain ⟨r, k, rfl⟩ : ∃ (r : Fin 100000) (k : Fin 64), i = ix2 r k := ⟨i 0, i 1, eq_ix2 i⟩
  exact refXw_apply a0 a1 r k

theorem refEmb_eq (h : Vec Ideal Cert.KernelIdeal.S100000x64 .f32) : refEmb (F := Ideal) h = embArr h := by
  funext i
  obtain ⟨r, k, rfl⟩ : ∃ (r : Fin 100000) (k : Fin 64), i = ix2 r k := ⟨i 0, i 1, eq_ix2 i⟩
  exact refEmb_apply h r k

theorem refLoss_eq_kLoss (a0 : Vec Ideal Cert.KernelIdeal.S100000x256 .f32) (a1 : Vec Ideal Cert.KernelIdeal.S256x64 .f32)
    (a2 a3 : IVec Cert.KernelIdeal.S3200000 32) (a4 : Vec Ideal Cert.KernelIdeal.S3200000 .f32) (a5 a6 a7 : IVec Cert.KernelIdeal.S4096 32) :
    refLoss (F := Ideal) a0 a1 a2 a3 a4 a5 a6 a7 = kLoss a0 a1 a2 a3 a4 a5 a6 a7 := by
  unfold refLoss kLoss hArr
  rw [refXw_eq a0 a1, ← chain_eq (F := Ideal) (xwArr a0 a1) a2 a3 a4, refSumsq_eq, refEmb_eq,
    ← gather_eq (F := Ideal) _ a5, ← gather_eq (F := Ideal) _ a6, ← gather_eq (F := Ideal) _ a7, refBpr_eq, refLossOf_eq]

theorem algebraic : Cert.algebraic_KernelIdeal_ReferenceIdeal := by
  intro m g m' g' hpre hagree
  refine ⟨fun c => kLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run _ _ _).mono (fun r h c => ?_) (Cert.KernelIdeal.Hand.run_all m g)
    obtain ⟨h5, h6, h7⟩ := Cert.PreIdx.idx_of_pre m hpre c
    exact ⟨(h c _ (mem_uc Cert.KernelIdeal.main_v23 (by decide))).trans (kval m c (fun j => h5 j) (fun j => h6 j) (fun j => h7 j)),
      (h c _ (mem_uc Cert.KernelIdeal.main_arg0 (by decide))).trans (W8_main_arg0 m c),
      (h c _ (mem_uc Cert.KernelIdeal.main_arg1 (by decide))).trans (W8_main_arg1 m c),
      (h c _ (mem_uc Cert.KernelIdeal.main_arg2 (by decide))).trans (W8_main_arg2 m c),
      (h c _ (mem_uc Cert.KernelIdeal.main_arg3 (by decide))).trans (W8_main_arg3 m c),
      (h c _ (mem_uc Cert.KernelIdeal.main_arg4 (by decide))).trans (W8_main_arg4 m c),
      (h c _ (mem_uc Cert.KernelIdeal.main_arg5 (by decide))).trans (W8_main_arg5 m c),
      (h c _ (mem_uc Cert.KernelIdeal.main_arg6 (by decide))).trans (W8_main_arg6 m c),
      (h c _ (mem_uc Cert.KernelIdeal.main_arg7 (by decide))).trans (W8_main_arg7 m c)⟩
  · refine (θ_run _ _ _).mono (fun r h c => ⟨(h c).1.trans ?_, (h c).2⟩) (Cert.ReferenceIdeal.Hand.run (F := Ideal) m' g')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact refLoss_eq_kLoss _ _ _ _ _ _ _ _

end Cert.Bridge

end
-- ==== Proof.lean ====
import proofs.«420464_j10849087390119_2_alg».proof.Defs
import proofs.«420464_j10849087390119_2_alg».proof.Proof.Gen.Kernel
import proofs.«420464_j10849087390119_2_alg».proof.Proof.Gen.KernelIdeal
import proofs.«420464_j10849087390119_2_alg».proof.Proof.Gen.ReferenceIdeal
import proofs.«420464_j10849087390119_2_alg».proof.Proof.Gen.Pre_finite_inputs
import proofs.«420464_j10849087390119_2_alg».proof.Proof.WRun
import proofs.«420464_j10849087390119_2_alg».proof.Proof.Run
import proofs.«420464_j10849087390119_2_alg».proof.Proof.RefRun
import proofs.«420464_j10849087390119_2_alg».proof.Proof.Bridge

noncomputable section

namespace Cert.Proof

open Idealize.ShloMosaic Idealize.SL.Sem

-- Sums regroup freely on the extended reals, 0 − x = −x, and for row numbers in [-100000, 100000) filling an out-of-range row and clamping its number agree.
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Hand.run (F := Ideal) m ρ),
  trivial,
  Cert.Bridge.algebraic⟩

end Cert.Proof

end
